-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S3129x512 : Shape := ⟨2, ![3129, 512]⟩
abbrev S8192x3129 : Shape := ⟨2, ![8192, 3129]⟩
abbrev S8192x1 : Shape := ⟨2, ![8192, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S3129x512 : S_.BroadcastsInDim S3129x512 (![] : Fin 0 → Fin S3129x512.rank)
  reducesTo_S3129x512_S_d0_1 : S3129x512.ReducesTo [0, 1] S_
  bcast_S_S8192x3129 : S_.BroadcastsInDim S8192x3129 (![] : Fin 0 → Fin S8192x3129.rank)
  reducesTo_S8192x3129_S_d0_1 : S8192x3129.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part2 {F : FTy → Type} [FloatOps F] (main_arg6 : IVec S8192x1 32) (main_v32 : IVec S_ 1) (main_c_12 : IVec S_ 32) : IVec S_ 1 :=
  let main_v33 : IVec S8192x1 32 := broadcastInDim S8192x1 ![] bcast_S_S8192x1 main_c_12
  let main_v34 : IVec S8192x1 1 := cmpi .slt main_arg6 main_v33
  let main_c_13 : IVec S_ 1 := constantI S_ 1 1#1
  let main_v35 : IVec S_ 1 := (fun x v => Host.reduce IntOp.andi x v reducesTo_S8192x1_S_d0_1 h_S_) main_v34 main_c_13
  let main_v36 : IVec S_ 1 := andi main_v32 main_v35
  main_v36

def fn_part1 {F : FTy → Type} [FloatOps F] (main_arg4 : FVec F S8192x3129 .f32) (main_arg5 : FVec F S8192x3129 .f32) (main_arg6 : IVec S8192x1 32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x3129 .f32 := Host.absf main_arg4
  let main_cst_6 : FVec F S_ .f32 := constant S_ .f32 0x7F800000#32
  let main_v20 : FVec F S8192x3129 .f32 := broadcastInDim S8192x3129 ![] bcast_S_S8192x3129 main_cst_6
  let main_v21 : IVec S8192x3129 1 := cmpf .olt main_v19 main_v20
  let main_c_7 : IVec S_ 1 := constantI S_ 1 1#1
  let main_v22 : IVec S_ 1 := (fun x v => Host.reduce IntOp.andi x v reducesTo_S8192x3129_S_d0_1 h_S_) main_v21 main_c_7
  let main_v23 : IVec S_ 1 := andi main_v18 main_v22
  let main_v24 : FVec F S8192x3129 .f32 := Host.absf main_arg5
  let main_cst_8 : FVec F S_ .f32 := constant S_ .f32 0x7F800000#32
  let main_v25 : FVec F S8192x3129 .f32 := broadcastInDim S8192x3129 ![] bcast_S_S8192x3129 main_cst_8
  let main_v26 : IVec S8192x3129 1 := cmpf .olt main_v24 main_v25
  let main_c_9 : IVec S_ 1 := constantI S_ 1 1#1
  let main_v27 : IVec S_ 1 := (fun x v => Host.reduce IntOp.andi x v reducesTo_S8192x3129_S_d0_1 h_S_) main_v26 main_c_9
  let main_v28 : IVec S_ 1 := andi main_v23 main_v27
  let main_c_10 : IVec S_ 32 := constantI S_ 32 0#32
  let main_v29 : IVec S8192x1 32 := broadcastInDim S8192x1 ![] bcast_S_S8192x1 main_c_10
  let main_v30 : IVec S8192x1 1 := cmpi .sge main_arg6 main_v29
  let main_c_11 : IVec S_ 1 := constantI S_ 1 1#1
  let main_v31 : IVec S_ 1 := (fun x v => Host.reduce IntOp.andi x v reducesTo_S8192x1_S_d0_1 h_S_) main_v30 main_c_11
  let main_v32 : IVec S_ 1 := andi main_v28 main_v31
  let main_c_12 : IVec S_ 32 := constantI S_ 32 3129#32
  fn_part2 (F := F) main_arg6 main_v32 main_c_12

def fn {F : FTy → Type} [FloatOps F] (main_arg0 : FVec F S8192x512 .f32) (main_arg1 : FVec F S3129x512 .f32) (main_arg2 : FVec F S8192x512 .f32) (main_arg3 : FVec F S8192x512 .f32) (main_arg4 : FVec F S8192x3129 .f32) (main_arg5 : FVec F S8192x3129 .f32) (main_arg6 : IVec S8192x1 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S3129x512 .f32 := Host.absf main_arg1
  let main_cst_0 : FVec F S_ .f32 := constant S_ .f32 0x7F800000#32
  let main_v5 : FVec F S3129x512 .f32 := broadcastInDim S3129x512 ![] bcast_S_S3129x512 main_cst_0
  let main_v6 : IVec S3129x512 1 := cmpf .olt main_v4 main_v5
  let main_c_1 : IVec S_ 1 := constantI S_ 1 1#1
  let main_v7 : IVec S_ 1 := (fun x v => Host.reduce IntOp.andi x v reducesTo_S3129x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_v13 main_v16
-- ==== Kernel.lean ====
abbrev S8192x512 : Shape := ⟨2, ![8192, 512]⟩
abbrev S3129x512 : Shape := ⟨2, ![3129, 512]⟩
abbrev S8192x3129 : Shape := ⟨2, ![8192, 3129]⟩
abbrev S8192x1 : Shape := ⟨2, ![8192, 1]⟩
abbrev S3129 : Shape := ⟨1, ![3129]⟩
abbrev S3129x1 : Shape := ⟨2, ![3129, 1]⟩
abbrev S16x128 : Shape := ⟨2, ![16, 128]⟩
abbrev S256x512 : Shape := ⟨2, ![256, 512]⟩
abbrev S256x3129 : Shape := ⟨2, ![256, 3129]⟩
abbrev S256x1 : Shape := ⟨2, ![256, 1]⟩
abbrev S8x128 : Shape := ⟨2, ![8, 128]⟩
abbrev S256 : Shape := ⟨1, ![256]⟩
abbrev S1 : Shape := ⟨1, ![1]⟩
abbrev S1x1 : Shape := ⟨2, ![1, 1]⟩
abbrev S1x124 : Shape := ⟨2, ![1, 124]⟩
abbrev S1x128 : Shape := ⟨2, ![1, 128]⟩
abbrev S7x128 : Shape := ⟨2, ![7, 128]⟩
abbrev S128 : Shape := ⟨1, ![128]⟩
abbrev S_ : Shape := ⟨0, ![]⟩
abbrev S3 : Shape := ⟨1, ![3]⟩

abbrev nBuf : Space → Nat
  | .hbm => 41
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S3129x512, .f32⟩
  | .hbm, ⟨2, _⟩ => ⟨S8192x512, .f32⟩
  | .hbm, ⟨3, _⟩ => ⟨S8192x512, .f32⟩
  | .hbm, ⟨4, _⟩ => ⟨S8192x3129, .f32⟩
  | .hbm, ⟨5, _⟩ => ⟨S8192x3129, .f32⟩
  | .hbm, ⟨6, _⟩ => ⟨S8192x1, .i32⟩
  | .hbm, ⟨7, _⟩ => ⟨S3129x512, .bf16⟩
  | .hbm, ⟨8, _⟩ => ⟨S16x128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S3, .f32⟩
  | .local _ .vmem, ⟨0, _⟩ => ⟨S3129x512, .f32⟩
  | .local _ .vmem, ⟨1, _⟩ => ⟨S3129x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x3129, .f32⟩
  | .local _ .vmem, ⟨9, _⟩ => ⟨S256x3129, .f32⟩
  | .local _ .vmem, ⟨10, _⟩ => ⟨S256x3129, .f32⟩
  | .local _ .vmem, ⟨11, _⟩ => ⟨S256x3129, .f32⟩
  | .local _ .vmem, ⟨12, _⟩ => ⟨S256x1, .i32⟩
  | .local _ .vmem, ⟨13, _⟩ => ⟨S256x1, .i32⟩
  | .local _ .vmem, ⟨14, _⟩ => ⟨S3129x512, .bf16⟩
  | .local _ .vmem, ⟨15, _⟩ => ⟨S8x128, .f32⟩
  | .local _ .vmem, ⟨16, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3129x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3129x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x3129 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x3129 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S3129x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S3129x512_S3129x512_0_0 : ∀ a, (![0, 0] : Fin 2 → Nat) a + S3129x512.size a ≤ S3129x512.size a
  h_S3129x512 : 0 < S3129x512.numel
  reduces_S3129x512_S3129 : S3129x512.Reduces [1] S3129
  shapeCasts_S3129_S3129x1 : S3129.ShapeCasts S3129x1
  broadcasts_S3129x1_S3129x512 : S3129x1.Broadcasts S3129x512
  bitsLt_bf16_f32 : FTy.bits .bf16 < FTy.bits .f32
  packedbf16_S3129x512_S3129x512_0_0 : (Rect.unit (s := S3129x512) ![0, 0] S3129x512.size inb_S3129x512_S3129x512_0_0).PackedRows (EltTy.packing .bf16)
  inb_S8x128_S8x128_0_0 : ∀ a, (![0, 0] : Fin 2 → Nat) a + S8x128.size a ≤ S8x128.size a
  h_S8x128 : 0 < S8x128.numel
  inb_S256x1_S256x1_0_0 : ∀ a, (![0, 0] : Fin 2 → Nat) a + S256x1.size a ≤ S256x1.size a
  h_S256x1 : 0 < S256x1.numel
  iota_S256x3129_d1_w32 : S256x3129.Iotas .tc 32 [1]
  broadcasts_S256x1_S256x3129 : S256x1.Broadcasts S256x3129
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  shapeCasts_S3129x512_S3129x512 : S3129x512.ShapeCasts S3129x512
  reduces_S256x3129_S256 : S256x3129.Reduces [1] S256
  inb_S256x3129_S256x3129_0_0 : ∀ a, (![0, 0] : Fin 2 → Nat) a + S256x3129.size a ≤ S256x3129.size a
  h_S256x3129 : 0 < S256x3129.numel
  reduces_S256x1_S1 : S256x1.Reduces [0] S1
  shapeCasts_S1_S1x1 : S1.ShapeCasts S1x1
  concatenates_S1x1_S1x1_S1x1_S1x1_S1x124_S1x128_d1 : Shape.Concatenates [S1x1, S1x1, S1x1, S1x1, S1x124] S1x128 1
  concatenates_S1x128_S7x128_S8x128_d0 : Shape.Concatenates [S1x128, S7x128] S8x128 0
  shapeCasts_S8x128_S8x128 : S8x128.ShapeCasts S8x128
  slices_S16x128_S1x128_0_0 : S16x128.Slices ![0, 0] S1x128
  shapeCasts_S1x128_S128 : S1x128.ShapeCasts S128
  slices_S16x128_S1x128_8_0 : S16x128.Slices ![8, 0] S1x128
  slices_S128_S1_0 : S128.Slices ![0] S1
  shapeCasts_S1_S_ : S1.ShapeCasts S_
  slices_S128_S1_1 : S128.Slices ![1] S1
  slices_S128_S1_2 : S128.Slices ![2] S1
  slices_S128_S1_3 : S128.Slices ![3] S1
  bcast_S_S1 : S_.BroadcastsInDim S1 (![] : Fin 0 → Fin S1.rank)
  concatenates_S1_S1_S1_S3_d0 : Shape.Concatenates [S1, S1, S1] S3 0
  dot_S256x512_S3129x512_S256x3129_1_1_0_0_n_n_wf : DotDims.WF S256x512 S3129x512 S256x3129 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3129x512.size a ≤ S3129x512.size a
  hwx0_0 : ∀ i : grid0.Coords, EltTy.bits .f32 = 32 ∨ (Rect.block (s := S3129x512) S3129x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3129x512.size a ≤ S3129x512.size a
  hwx0_1 : ∀ i : grid0.Coords, EltTy.bits .bf16 = 32 ∨ (Rect.block (s := S3129x512) S3129x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .f32 = 32 ∨ (Rect.block (s := S8192x512) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S8192x512.size a
  hwx1_1 : ∀ i : grid1.Coords, EltTy.bits .f32 = 32 ∨ (Rect.block (s := S8192x512) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S8192x512.size a
  hwx1_2 : ∀ i : grid1.Coords, EltTy.bits .f32 = 32 ∨ (Rect.block (s := S8192x512) S256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x3129.size a ≤ S8192x3129.size a
  hwx1_3 : ∀ i : grid1.Coords, EltTy.bits .f32 = 32 ∨ (Rect.block (s := S8192x3129) S256x3129.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x3129.size a ≤ S8192x3129.size a
  hwx1_4 : ∀ i : grid1.Coords, EltTy.bits .f32 = 32 ∨ (Rect.block (s := S8192x3129) S256x3129.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S8192x1.size a
  hwx1_5 : ∀ i : grid1.Coords, EltTy.bits .i32 = 32 ∨ (Rect.block (s := S8192x1) S256x1.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3129x512.size a ≤ S3129x512.size a
  hwx1_6 : ∀ i : grid1.Coords, EltTy.bits .bf16 = 32 ∨ (Rect.block (s := S3129x512) S3129x512.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S16x128.size a
  hwx1_7 : ∀ i : grid1.Coords, EltTy.bits .f32 = 32 ∨ (Rect.block (s := S16x128) S8x128.size (cc1_transform_7 i) (hinb1_7 i)).WholeWords (EltTy.packing .f32)

variable [Facts₀]

def dot_S256x512_S3129x512_S256x3129_1_1_0_0_n_n : DotDims S256x512 S3129x512 S256x3129 where
  lhsContracting := [1]
  rhsContracting := [1]
  lhsNonContracting := [0]
  rhsNonContracting := [0]
  lhsBatch := []
  rhsBatch := []
  wf := dot_S256x512_S3129x512_S256x3129_1_1_0_0_n_n_wf

abbrev win0_0 : Pipeline.Window sig grid0 :=
  Pipeline.Window.ofSpec (Memref.whole main_arg1) S3129x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3129x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x3129.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x3129.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0) S3129x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x512 : Shape := ⟨2, ![8192, 512]⟩
abbrev S3129x512 : Shape := ⟨2, ![3129, 512]⟩
abbrev S8192x3129 : Shape := ⟨2, ![8192, 3129]⟩
abbrev S8192x1 : Shape := ⟨2, ![8192, 1]⟩
abbrev S8192 : Shape := ⟨1, ![8192]⟩
abbrev S_ : Shape := ⟨0, ![]⟩
abbrev S3129 : Shape := ⟨1, ![3129]⟩
abbrev S3129x1 : Shape := ⟨2, ![3129, 1]⟩
abbrev S8192x1x1 : Shape := ⟨3, ![8192, 1, 1]⟩
abbrev S1 : Shape := ⟨1, ![1]⟩
abbrev S1x1x1 : Shape := ⟨3, ![1, 1, 1]⟩
abbrev S3 : Shape := ⟨1, ![3]⟩

abbrev nBuf : Space → Nat
  | .hbm => 191
  | .vmem => 0
  | .smem => 0
  | _ => 0

abbrev hbmTy0_0 (i : Nat) : BufTy := match i % 128 with
  | 0 => ⟨S8192x512, .f32⟩
  | 1 => ⟨S3129x512, .f32⟩
  | 2 => ⟨S8192x512, .f32⟩
  | 3 => ⟨S8192x512, .f32⟩
  | 4 => ⟨S8192x3129, .f32⟩
  | 5 => ⟨S8192x3129, .f32⟩
  | 6 => ⟨S8192x1, .i32⟩
  | 7 => ⟨S8192, .i32⟩
  | 8 => ⟨S8192x512, .f32⟩
  | 9 => ⟨S_, .f32⟩
  | 10 => ⟨S8192, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x512, .f32⟩
  | 17 => ⟨S8192x512, .f32⟩
  | 18 => ⟨S3129x512, .f32⟩
  | 19 => ⟨S_, .f32⟩
  | 20 => ⟨S3129, .f32⟩
  | 21 => ⟨S3129x1, .f32⟩
  | 22 => ⟨S3129x1, .f32⟩
  | 23 => ⟨S_, .f32⟩
  | 24 => ⟨S3129x1, .f32⟩
  | 25 => ⟨S3129x1, .f32⟩
  | 26 => ⟨S3129x512, .f32⟩
  | 27 => ⟨S3129x512, .f32⟩
  | 28 => ⟨S8192x3129, .f32⟩
  | 29 => ⟨S8192x1, .i32⟩
  | 30 => ⟨S_, .i32⟩
  | 31 => ⟨S8192x1, .i32⟩
  | 32 => ⟨S8192x1, .i1⟩
  | 33 => ⟨S_, .i32⟩
  | 34 => ⟨S8192x1, .i32⟩
  | 35 => ⟨S8192x1, .i32⟩
  | 36 => ⟨S8192x1, .i32⟩
  | 37 => ⟨S8192x1x1, .i32⟩
  | 38 => ⟨S1, .i32⟩
  | 39 => ⟨S_, .i32⟩
  | 40 => ⟨S8192x1x1, .i32⟩
  | 41 => ⟨S8192x1x1, .i1⟩
  | 42 => ⟨S1x1x1, .i32⟩
  | 43 => ⟨S8192x1x1, .i32⟩
  | 44 => ⟨S8192x1x1, .i1⟩
  | 45 => ⟨S8192x1x1, .i1⟩
  | 46 => ⟨S_, .i1⟩
  | 47 => ⟨S8192x1, .i1⟩
  | 48 => ⟨S8192x1, .f32⟩
  | 49 => ⟨S_, .f32⟩
  | 50 => ⟨S8192x1, .f32⟩
  | 51 => ⟨S8192x1, .f32⟩
  | 52 => ⟨S8192, .f32⟩
  | 53 => ⟨S8192, .f32⟩
  | 54 => ⟨S8192x3129, .f32⟩
  | 55 => ⟨S_, .f32⟩
  | 56 => ⟨S8192, .f32⟩
  | 57 => ⟨S8192, .f32⟩
  | 58 => ⟨S8192, .f32⟩
  | 59 => ⟨S8192, .f32⟩
  | 60 => ⟨S_, .f32⟩
  | 61 => ⟨S_, .f32⟩
  | 62 => ⟨S_, .f32⟩
  | 63 => ⟨S_, .f32⟩
  | 64 => ⟨S8192x512, .f32⟩
  | 65 => ⟨S_, .f32⟩
  | 66 => ⟨S8192, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x512, .f32⟩
  | 73 => ⟨S8192x512, .f32⟩
  | 74 => ⟨S8192x512, .f32⟩
  | 75 => ⟨S_, .f32⟩
  | 76 => ⟨S8192, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x512, .f32⟩
  | 83 => ⟨S8192x512, .f32⟩
  | 84 => ⟨S8192x512, .f32⟩
  | 85 => ⟨S_, .f32⟩
  | 86 => ⟨S8192, .f32⟩
  | 87 => ⟨S_, .f32⟩
  | 88 => ⟨S8192, .f32⟩
  | 89 => ⟨S8192, .f32⟩
  | 90 => ⟨S_, .f32⟩
  | 91 => ⟨S_, .f32⟩
  | 92 => ⟨S_, .f32⟩
  | 93 => ⟨S_, .f32⟩
  | 94 => ⟨S_, .f32⟩
  | 95 => ⟨S8192, .f32⟩
  | 96 => ⟨S_, .f32⟩
  | 97 => ⟨S8192, .f32⟩
  | 98 => ⟨S8192, .f32⟩
  | 99 => ⟨S8192x1, .f32⟩
  | 100 => ⟨S8192x3129, .f32⟩
  | 101 => ⟨S8192x3129, .f32⟩
  | 102 => ⟨S8192x3129, .f32⟩
  | 103 => ⟨S_, .f32⟩
  | 104 => ⟨S8192, .f32⟩
  | 105 => ⟨S8192x1, .f32⟩
  | 106 => ⟨S8192x1, .f32⟩
  | 107 => ⟨S8192x3129, .f32⟩
  | 108 => ⟨S8192x3129, .f32⟩
  | 109 => ⟨S8192x1, .i32⟩
  | 110 => ⟨S_, .i32⟩
  | 111 => ⟨S8192x1, .i32⟩
  | 112 => ⟨S8192x1, .i1⟩
  | 113 => ⟨S_, .i32⟩
  | 114 => ⟨S8192x1, .i32⟩
  | 115 => ⟨S8192x1, .i32⟩
  | 116 => ⟨S8192x1, .i32⟩
  | 117 => ⟨S8192x1x1, .i32⟩
  | 118 => ⟨S1, .i32⟩
  | 119 => ⟨S_, .i32⟩
  | 120 => ⟨S8192x1x1, .i32⟩
  | 121 => ⟨S8192x1x1, .i1⟩
  | 122 => ⟨S1x1x1, .i32⟩
  | 123 => ⟨S8192x1x1, .i32⟩
  | 124 => ⟨S8192x1x1, .i1⟩
  | 125 => ⟨S8192x1x1, .i1⟩
  | 126 => ⟨S_, .i1⟩
  | 127 => ⟨S8192x1, .i1⟩
  | _ => ⟨S8192x512, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S8192, .f32⟩
  | 15 => ⟨S_, .f32⟩
  | 16 => ⟨S8192, .f32⟩
  | 17 => ⟨S8192, .f32⟩
  | 18 => ⟨S8192x1, .f32⟩
  | 19 => ⟨S8192x3129, .f32⟩
  | 20 => ⟨S8192x3129, .f32⟩
  | 21 => ⟨S8192x3129, .f32⟩
  | 22 => ⟨S_, .f32⟩
  | 23 => ⟨S8192, .f32⟩
  | 24 => ⟨S8192x1, .f32⟩
  | 25 => ⟨S8192x1, .f32⟩
  | 26 => ⟨S8192x3129, .f32⟩
  | 27 => ⟨S8192x3129, .f32⟩
  | 28 => ⟨S8192x1, .i32⟩
  | 29 => ⟨S_, .i32⟩
  | 30 => ⟨S8192x1, .i32⟩
  | 31 => ⟨S8192x1, .i1⟩
  | 32 => ⟨S_, .i32⟩
  | 33 => ⟨S8192x1, .i32⟩
  | 34 => ⟨S8192x1, .i32⟩
  | 35 => ⟨S8192x1, .i32⟩
  | 36 => ⟨S8192x1x1, .i32⟩
  | 37 => ⟨S1, .i32⟩
  | 38 => ⟨S_, .i32⟩
  | 39 => ⟨S8192x1x1, .i32⟩
  | 40 => ⟨S8192x1x1, .i1⟩
  | 41 => ⟨S1x1x1, .i32⟩
  | 42 => ⟨S8192x1x1, .i32⟩
  | 43 => ⟨S8192x1x1, .i1⟩
  | 44 => ⟨S8192x1x1, .i1⟩
  | 45 => ⟨S_, .i1⟩
  | 46 => ⟨S8192x1, .i1⟩
  | 47 => ⟨S8192x1, .f32⟩
  | 48 => ⟨S_, .f32⟩
  | 49 => ⟨S8192x1, .f32⟩
  | 50 => ⟨S8192x1, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S1, .f32⟩
  | 60 => ⟨S1, .f32⟩
  | 61 => ⟨S1, .f32⟩
  | 62 => ⟨S3, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_cst : Ref sig .tc := ⟨.hbm, 49, rfl⟩
abbrev main_call0_v14 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_8 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_9 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_10 : Ref sig .tc := ⟨.hbm, 85, rfl⟩
abbrev main_v46 : Ref sig .tc := ⟨.hbm, 86, rfl⟩
abbrev main_cst_11 : Ref sig .tc := ⟨.hbm, 87, rfl⟩
abbrev main_v47 : Ref sig .tc := ⟨.hbm, 88, rfl⟩
abbrev main_v48 : Ref sig .tc := ⟨.hbm, 89, rfl⟩
abbrev main_cst_12 : Ref sig .tc := ⟨.hbm, 90, rfl⟩
abbrev main_v49 : Ref sig .tc := ⟨.hbm, 91, rfl⟩
abbrev main_cst_13 : Ref sig .tc := ⟨.hbm, 92, rfl⟩
abbrev main_v50 : Ref sig .tc := ⟨.hbm, 93, rfl⟩
abbrev main_call1_cst : Ref sig .tc := ⟨.hbm, 94, rfl⟩
abbrev main_call1_v0 : Ref sig .tc := ⟨.hbm, 95, rfl⟩
abbrev main_call1_cst_0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_cst_1 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_v51 : Ref sig .tc := ⟨.hbm, 108, rfl⟩
abbrev main_v52 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_cst : Ref sig .tc := ⟨.hbm, 129, rfl⟩
abbrev main_call2_v14 : Ref sig .tc := ⟨.hbm, 130, rfl⟩
abbrev main_v53 : Ref sig .tc := ⟨.hbm, 131, rfl⟩
abbrev main_cst_14 : Ref sig .tc := ⟨.hbm, 132, rfl⟩
abbrev main_v54 : Ref sig .tc := ⟨.hbm, 133, rfl⟩
abbrev main_cst_15 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_cst_16 : Ref sig .tc := ⟨.hbm, 139, rfl⟩
abbrev main_v59 : Ref sig .tc := ⟨.hbm, 140, rfl⟩
abbrev main_call3_cst : Ref sig .tc := ⟨.hbm, 141, rfl⟩
abbrev main_call3_v0 : Ref sig .tc := ⟨.hbm, 142, rfl⟩
abbrev main_call3_cst_0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_cst_1 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_v60 : Ref sig .tc := ⟨.hbm, 155, rfl⟩
abbrev main_v61 : Ref sig .tc := ⟨.hbm, 156, rfl⟩
abbrev main_call4_c : Ref sig .tc := ⟨.hbm, 157, rfl⟩
abbrev main_call4_v0 : Ref sig .tc := ⟨.hbm, 158, rfl⟩
abbrev main_call4_v1 : Ref sig .tc := ⟨.hbm, 159, rfl⟩
abbrev main_call4_c_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_c_1 : Ref sig .tc := ⟨.hbm, 165, rfl⟩
abbrev main_call4_c_2 : Ref sig .tc := ⟨.hbm, 166, rfl⟩
abbrev main_call4_v6 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_c_3 : Ref sig .tc := ⟨.hbm, 173, rfl⟩
abbrev main_call4_v12 : Ref sig .tc := ⟨.hbm, 174, rfl⟩
abbrev main_call4_v13 : Ref sig .tc := ⟨.hbm, 175, rfl⟩
abbrev main_call4_cst : Ref sig .tc := ⟨.hbm, 176, rfl⟩
abbrev main_call4_v14 : Ref sig .tc := ⟨.hbm, 177, rfl⟩
abbrev main_v62 : Ref sig .tc := ⟨.hbm, 178, rfl⟩
abbrev main_cst_17 : Ref sig .tc := ⟨.hbm, 179, rfl⟩
abbrev main_v63 : Ref sig .tc := ⟨.hbm, 180, rfl⟩
abbrev main_cst_18 : Ref sig .tc := ⟨.hbm, 181, rfl⟩
abbrev main_v64 : Ref sig .tc := ⟨.hbm, 182, rfl⟩
abbrev main_v65 : Ref sig .tc := ⟨.hbm, 183, rfl⟩
abbrev main_cst_19 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩

abbrev nD : Nat := 1
abbrev τ : Topo := Topo.v7x

variable {F : FTy → Type} [FloatOps F]

class Facts₀ : Prop where
  shapeCasts_S8192x1_S8192 : S8192x1.ShapeCasts S8192
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S3129x512_S3129_d1 : S3129x512.ReducesTo [1] S3129
  bcast_S3129_S3129x1_0 : S3129.BroadcastsInDim S3129x1 (![0] : Fin 1 → Fin S3129x1.rank)
  bcast_S_S3129x1 : S_.BroadcastsInDim S3129x1 (![] : Fin 0 → Fin S3129x1.rank)
  bcast_S3129x1_S3129x512_0_1 : S3129x1.BroadcastsInDim S3129x512 (![0, 1] : Fin 2 → Fin S3129x512.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x3129_S8192_d1 : S8192x3129.ReducesTo [1] S8192
  reducesTo_S8192_S_d0 : S8192.ReducesTo [0] S_
  bcast_S_S8192 : S_.BroadcastsInDim S8192 (![] : Fin 0 → Fin S8192.rank)
  bcast_S8192x1_S8192x3129_0_1 : S8192x1.BroadcastsInDim S8192x3129 (![0, 1] : Fin 2 → Fin S8192x3129.rank)
  reducesTo_S8192x1_S_d0_1 : S8192x1.ReducesTo [0, 1] S_
  bcast_S_S1 : S_.BroadcastsInDim S1 (![] : Fin 0 → Fin S1.rank)
  concatenates_S1_S1_S1_S3_d0 : Shape.Concatenates [S1, S1, S1] S3 0
  dot_S8192x512_S3129x512_S8192x3129_1_1_0_0_n_n_wf : DotDims.WF S8192x512 S3129x512 S8192x3129 [1] [1] [0] [0] [] []
  gather_S8192x3129_S8192x1x1_S8192x1_n_1_0_0_1_2_11_wf : GatherDims.WF S8192x3129 S8192x1x1 S8192x1 [] [1] [0] [1] [0] 2 ![1, 1]

variable [Facts₀]

def dot_S8192x512_S3129x512_S8192x3129_1_1_0_0_n_n : DotDims S8192x512 S3129x512 S8192x3129 where
  lhsContracting := [1]
  rhsContracting := [1]
  lhsNonContracting := [0]
  rhsNonContracting := [0]
  lhsBatch := []
  rhsBatch := []
  wf := dot_S8192x512_S3129x512_S8192x3129_1_1_0_0_n_n_wf
def gather_S8192x3129_S8192x1x1_S8192x1_n_1_0_0_1_2_11 : GatherDims S8192x3129 S8192x1x1 S8192x1 where
  offsetDims := []
  collapsedSliceDims := [1]
  operandBatchingDims := [0]
  startIndicesBatchingDims := [0]
  startIndexMap := [1]
  indexVectorDim := 2
  sliceSizes := ![1, 1]
  wf := gather_S8192x3129_S8192x1x1_S8192x1_n_1_0_0_1_2_11_wf

class Facts : Prop extends Facts₀ where

variable [Facts]
-- ==== Proof.K.R0.lean ====
import proofs.«402368_j74302934221059_3_alg».proof.Proof.Gen.Kernel.Launch
import proofs.«402368_j74302934221059_3_alg».proof.Proof.Gen.Kernel.Skeleton
import proofs.«402368_j74302934221059_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S3129x512 := Rect.unit (s := S3129x512) ![0, 0] S3129x512.size inb_S3129x512_S3129x512_0_0

def out0_1 (x0 : Vec F S3129x512 .f32) : Vec F S3129x512 .bf16 :=
  View.canon [⟨r0_0, k0_pay1 (View.ld x0 r0_0)⟩]

theorem cover0_1 (p0 : Vec F S3129x512 .bf16) (y : S3129x512.Idx) :
    ∃ pc ∈ ([⟨r0_0, p0⟩] : List (View.Piece (Elt F) S3129x512 .bf16)), y ∈ pc.1.set :=
  View.cover_of_tiled [⟨r0_0, p0⟩] S3129x512.size (by rfl) y

set_option maxHeartbeats 1000000 in

theorem sound_kernel0 (c : Dev nD) (E : Set ℕ) (i : grid0.Coords) (arg1 : Memref sig .tc .vmem S3129x512 .f32) (harg1 : arg1.IsWhole) (arg2 : Memref sig .tc .vmem S3129x512 .bf16) (harg2 : arg2.IsWhole)
    (x0 : Vec F S3129x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_ans_kernel i arg1 harg1 arg2 harg2) K := by
  simp only [cc0__normalize_ans_kernel_eq_skeleton]; unfold cc0__normalize_ans_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Runs.lean ====
import proofs.«402368_j74302934221059_3_alg».proof.Proof.Gen.Kernel.Launch
import proofs.«402368_j74302934221059_3_alg».proof.Proof.Gen.Kernel.Skeleton
import proofs.«402368_j74302934221059_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)

abbrev VO1_7 : View sig .tc .vmem S8x128 .f32 := (Memref.whole cc1_stg7_0 : Memref sig .tc .vmem S8x128 .f32).view

abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x3129 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x3129 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S3129x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x128 .f32 := win1_7.stage (cfg1.slots t 7)
abbrev hs1_7 (t : Fin cfg1.N) : (ms1_7 t).IsWhole := hstage1_7 ((cfg1.slots t 7).cast nbuf1_7)

end Cert.Kernel.Fr

end
-- ==== Proof.K.R1RunA.lean ====
import proofs.«402368_j74302934221059_3_alg».proof.Proof.K.R1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_A (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : cond1_0 i)
    (x0 x1 x2 : Vec F S256x512 .f32) (x3 x4 : Vec F S256x3129 .f32) (x5 : Vec F S256x1 .i32) (x6 : Vec F S3129x512 .bf16) :
    { L7 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Fr

end
-- ==== Proof.K.R1RunB.lean ====
import proofs.«402368_j74302934221059_3_alg».proof.Proof.K.R1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_B (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : ¬cond1_0 i)
    (x0 x1 x2 : Vec F S256x512 .f32) (x3 x4 : Vec F S256x3129 .f32) (x5 : Vec F S256x1 .i32) (x6 : Vec F S3129x512 .bf16) (xo7 : Vec F S8x128 .f32) :
    { L7 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Fr

end
-- ==== Proof.K.R1.lean ====
import proofs.«402368_j74302934221059_3_alg».proof.Proof.K.R1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_A_7 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : cond1_0 i)
    (x0 x1 x2 : Vec F S256x512 .f32) (x3 x4 : Vec F S256x3129 .f32) (x5 : Vec F S256x1 .i32) (x6 : Vec F S3129x512 .bf16) (y : S8x128.Idx) :
    ∃ pc ∈ (kernelRun1_A c i arg2 harg2 arg3 harg3 arg4 harg4 arg5 harg5 arg6 harg6 arg7 harg7 arg8 harg8 arg9 harg9 hc0 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 hc0 x0 x1 x2 x3 x4 x5 x6).1 S8x128.size (by sl_kernel_rfl) y

def out1_A_7 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : cond1_0 i)
    (x0 x1 x2 : Vec F S256x512 .f32) (x3 x4 : Vec F S256x3129 .f32) (x5 : Vec F S256x1 .i32) (x6 : Vec F S3129x512 .bf16) : Vec F S8x128 .f32 :=
  VO1_7.read (Elt F) (VO1_7.writes (Elt F) VO1_7.junk (kernelRun1_A c i arg2 harg2 arg3 harg3 arg4 harg4 arg5 harg5 arg6 harg6 arg7 harg7 arg8 harg8 arg9 harg9 hc0 x0 x1 x2 x3 x4 x5 x6).1)

theorem cover1_B_7 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : ¬cond1_0 i)
    (x0 x1 x2 : Vec F S256x512 .f32) (x3 x4 : Vec F S256x3129 .f32) (x5 : Vec F S256x1 .i32) (x6 : Vec F S3129x512 .bf16) (xo7 : Vec F S8x128 .f32) (y : S8x128.Idx) :
    ∃ pc ∈ (kernelRun1_B c i arg2 harg2 arg3 harg3 arg4 harg4 arg5 harg5 arg6 harg6 arg7 harg7 arg8 harg8 arg9 harg9 hc0 x0 x1 x2 x3 x4 x5 x6 xo7).1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 x6 xo7).1 S8x128.size (by sl_kernel_rfl) y

def out1_B_7 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : ¬cond1_0 i)
    (x0 x1 x2 : Vec F S256x512 .f32) (x3 x4 : Vec F S256x3129 .f32) (x5 : Vec F S256x1 .i32) (x6 : Vec F S3129x512 .bf16) (xo7 : Vec F S8x128 .f32) : Vec F S8x128 .f32 :=
  VO1_7.read (Elt F) (VO1_7.writes (Elt F) VO1_7.junk (kernelRun1_B c i arg2 harg2 arg3 harg3 arg4 harg4 arg5 harg5 arg6 harg6 arg7 harg7 arg8 harg8 arg9 harg9 hc0 x0 x1 x2 x3 x4 x5 x6 xo7).1)

def outsAt1 (c : Dev nD) : (n : ℕ) → n < cfg1.N → Vec F S8x128 .f32
  | 0, hn => out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if h0 : (n + 1) % 16 = 0 then
      out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else
      out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn))

theorem outsAt1_A (c : Dev nD) (t : Fin cfg1.N) (h0 : t.val % 16 = 0) :
    outsAt1 V c t.val t.isLt = out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

theorem before1_7_B (c : Dev nD) (t : Fin cfg1.N) (h0 : ¬t.val % 16 = 0) (d) :
    (dat1 V c).before 7 t d = (outsAt1 V c (t.val - 1) (Nat.lt_of_le_of_lt (Nat.sub_le _ _) t.isLt)) := by
  have hN : t.val < 32 := lt_of_lt_of_eq t.isLt (show cfg1.N = 32 from N_1)
  rw [Dat.before_out_kept _ 7 rfl t (by omega) (Bool.eq_false_iff.mpr fun h => by have := (flush1_7 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

-- One grid point of the second launch: the body run from the point's input blocks and the tile as the point before left it.
set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 32 := lt_of_lt_of_eq t.isLt (show cfg1.N = 32 from N_1)
  by_cases h0 : t.val % 16 = 0
  · rw [outsAt1_A V c t h0]
    unfold out1_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_A_7 c _ _ _ _ _ _ _ _ _ _ _ _ _ _ _ _ _ _ _ _ _ _ _ _ _)
  · rw [outsAt1_B V c t h0]
    simp only [before1_7_B V c t h0]
    unfold out1_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_B_7 c _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
import proofs.«402368_j74302934221059_3_alg».proof.Proof.K.R0
import proofs.«402368_j74302934221059_3_alg».proof.Proof.K.R1
import proofs.«402368_j74302934221059_3_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps2 (W2 m ρ c)

theorem W3_of (c : Dev nD) (r : Ref sig .tc) (h : r ∉ hostOps2_W) : W3 m ρ c (Proc.devRef .tc r) = W2 m ρ c (Proc.devRef .tc r) :=
  StableHlo.after_of_writes_sub hostOps2 _ hostOps2_writes h

-- An array the second launch only reads ends as launched: neither launch nor the closing operations write it.
theorem W3_in1 (c : Dev nD) (w : Fin cfg1.W) (hin : (cfg1.win w).isOut = false) (h2 : Pipeline.arrRef spec1 w ∉ hostOps2_W)
    (h0 : ∀ w', Pipeline.arrRef spec0 w' ≠ Pipeline.arrRef spec1 w) :
    W3 m ρ c (Proc.devRef .tc (Pipeline.arrRef spec1 w)) = m ((c : Thread nD τ).loc (Pipeline.arrRef spec1 w)) :=
  (W3_of m ρ c _ h2).trans ((W2_arr m ρ c w).trans (((dat1 (V1 m ρ) c).arrAt_in w hin _).trans
    ((A_eq1 (V1 m ρ) c w).trans (W1_of_ne m ρ c _ h0))))
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

-- Two launches, then the closing host operations: the run ends at the fold W3 of the three stages from the launch memory.
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

theorem run_res : θ_run defs (onTc (τ := τ) (main (F := F))) ⟨m, fun _ => 0, ρ⟩ (fun r => ∀ c : Dev nD,
      r.2.mem ((c.tc : Thread nD τ).loc main_v27) = W3 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v27 (by decide)),
     (h c _ (mem_uc main_arg0 (by decide))).trans (W3_in1 m ρ c 0 rfl (by decide) (by decide)),
     (h c _ (mem_uc main_arg1 (by decide))).trans (W3_main_arg1 m ρ c),
     (h c _ (mem_uc main_arg2 (by decide))).trans (W3_in1 m ρ c 1 rfl (by decide) (by decide)),
     (h c _ (mem_uc main_arg3 (by decide))).trans (W3_in1 m ρ c 2 rfl (by decide) (by decide)),
     (h c _ (mem_uc main_arg4 (by decide))).trans (W3_in1 m ρ c 3 rfl (by decide) (by decide)),
     (h c _ (mem_uc main_arg5 (by decide))).trans (W3_in1 m ρ c 4 rfl (by decide) (by decide)),
     (h c _ (mem_uc main_arg6 (by decide))).trans (W3_in1 m ρ c 5 rfl (by decide) (by decide))⟩) (run_all m ρ)

end Cert.Kernel.Fr

end
-- ==== Proof.KI.R0.lean ====
import proofs.«402368_j74302934221059_3_alg».proof.Proof.Gen.KernelIdeal.Launch
import proofs.«402368_j74302934221059_3_alg».proof.Proof.Gen.KernelIdeal.Skeleton
import proofs.«402368_j74302934221059_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S3129x512 := Rect.unit (s := S3129x512) ![0, 0] S3129x512.size inb_S3129x512_S3129x512_0_0

def out0_1 (x0 : Vec F S3129x512 .f32) : Vec F S3129x512 .bf16 :=
  View.canon [⟨r0_0, k0_pay1 (View.ld x0 r0_0)⟩]

theorem cover0_1 (p0 : Vec F S3129x512 .bf16) (y : S3129x512.Idx) :
    ∃ pc ∈ ([⟨r0_0, p0⟩] : List (View.Piece (Elt F) S3129x512 .bf16)), y ∈ pc.1.set :=
  View.cover_of_tiled [⟨r0_0, p0⟩] S3129x512.size (by rfl) y

set_option maxHeartbeats 1000000 in

theorem sound_kernel0 (c : Dev nD) (E : Set ℕ) (i : grid0.Coords) (arg1 : Memref sig .tc .vmem S3129x512 .f32) (harg1 : arg1.IsWhole) (arg2 : Memref sig .tc .vmem S3129x512 .bf16) (harg2 : arg2.IsWhole)
    (x0 : Vec F S3129x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_ans_kernel i arg1 harg1 arg2 harg2) K := by
  simp only [cc0__normalize_ans_kernel_eq_skeleton]; unfold cc0__normalize_ans_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Runs.lean ====
import proofs.«402368_j74302934221059_3_alg».proof.Proof.Gen.KernelIdeal.Launch
import proofs.«402368_j74302934221059_3_alg».proof.Proof.Gen.KernelIdeal.Skeleton
import proofs.«402368_j74302934221059_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)

abbrev VO1_7 : View sig .tc .vmem S8x128 .f32 := (Memref.whole cc1_stg7_0 : Memref sig .tc .vmem S8x128 .f32).view

abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x3129 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x3129 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S3129x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x128 .f32 := win1_7.stage (cfg1.slots t 7)
abbrev hs1_7 (t : Fin cfg1.N) : (ms1_7 t).IsWhole := hstage1_7 ((cfg1.slots t 7).cast nbuf1_7)

end Cert.KernelIdeal.Fr

end
-- ==== Proof.KI.R1RunA.lean ====
import proofs.«402368_j74302934221059_3_alg».proof.Proof.KI.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_A (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : cond1_0 i)
    (x0 x1 x2 : Vec F S256x512 .f32) (x3 x4 : Vec F S256x3129 .f32) (x5 : Vec F S256x1 .i32) (x6 : Vec F S3129x512 .bf16) :
    { L7 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Fr

end
-- ==== Proof.KI.R1RunB.lean ====
import proofs.«402368_j74302934221059_3_alg».proof.Proof.KI.R1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_B (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : ¬cond1_0 i)
    (x0 x1 x2 : Vec F S256x512 .f32) (x3 x4 : Vec F S256x3129 .f32) (x5 : Vec F S256x1 .i32) (x6 : Vec F S3129x512 .bf16) (xo7 : Vec F S8x128 .f32) :
    { L7 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Fr

end
-- ==== Proof.KI.R1.lean ====
import proofs.«402368_j74302934221059_3_alg».proof.Proof.KI.R1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_A_7 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : cond1_0 i)
    (x0 x1 x2 : Vec F S256x512 .f32) (x3 x4 : Vec F S256x3129 .f32) (x5 : Vec F S256x1 .i32) (x6 : Vec F S3129x512 .bf16) (y : S8x128.Idx) :
    ∃ pc ∈ (kernelRun1_A c i arg2 harg2 arg3 harg3 arg4 harg4 arg5 harg5 arg6 harg6 arg7 harg7 arg8 harg8 arg9 harg9 hc0 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 hc0 x0 x1 x2 x3 x4 x5 x6).1 S8x128.size (by sl_kernel_rfl) y

def out1_A_7 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : cond1_0 i)
    (x0 x1 x2 : Vec F S256x512 .f32) (x3 x4 : Vec F S256x3129 .f32) (x5 : Vec F S256x1 .i32) (x6 : Vec F S3129x512 .bf16) : Vec F S8x128 .f32 :=
  VO1_7.read (Elt F) (VO1_7.writes (Elt F) VO1_7.junk (kernelRun1_A c i arg2 harg2 arg3 harg3 arg4 harg4 arg5 harg5 arg6 harg6 arg7 harg7 arg8 harg8 arg9 harg9 hc0 x0 x1 x2 x3 x4 x5 x6).1)

theorem cover1_B_7 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : ¬cond1_0 i)
    (x0 x1 x2 : Vec F S256x512 .f32) (x3 x4 : Vec F S256x3129 .f32) (x5 : Vec F S256x1 .i32) (x6 : Vec F S3129x512 .bf16) (xo7 : Vec F S8x128 .f32) (y : S8x128.Idx) :
    ∃ pc ∈ (kernelRun1_B c i arg2 harg2 arg3 harg3 arg4 harg4 arg5 harg5 arg6 harg6 arg7 harg7 arg8 harg8 arg9 harg9 hc0 x0 x1 x2 x3 x4 x5 x6 xo7).1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 x6 xo7).1 S8x128.size (by sl_kernel_rfl) y

def out1_B_7 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : ¬cond1_0 i)
    (x0 x1 x2 : Vec F S256x512 .f32) (x3 x4 : Vec F S256x3129 .f32) (x5 : Vec F S256x1 .i32) (x6 : Vec F S3129x512 .bf16) (xo7 : Vec F S8x128 .f32) : Vec F S8x128 .f32 :=
  VO1_7.read (Elt F) (VO1_7.writes (Elt F) VO1_7.junk (kernelRun1_B c i arg2 harg2 arg3 harg3 arg4 harg4 arg5 harg5 arg6 harg6 arg7 harg7 arg8 harg8 arg9 harg9 hc0 x0 x1 x2 x3 x4 x5 x6 xo7).1)

def outsAt1 (c : Dev nD) : (n : ℕ) → n < cfg1.N → Vec F S8x128 .f32
  | 0, hn => out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if h0 : (n + 1) % 16 = 0 then
      out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else
      out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn))

theorem outsAt1_A (c : Dev nD) (t : Fin cfg1.N) (h0 : t.val % 16 = 0) :
    outsAt1 V c t.val t.isLt = out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

theorem before1_7_B (c : Dev nD) (t : Fin cfg1.N) (h0 : ¬t.val % 16 = 0) (d) :
    (dat1 V c).before 7 t d = (outsAt1 V c (t.val - 1) (Nat.lt_of_le_of_lt (Nat.sub_le _ _) t.isLt)) := by
  have hN : t.val < 32 := lt_of_lt_of_eq t.isLt (show cfg1.N = 32 from N_1)
  rw [Dat.before_out_kept _ 7 rfl t (by omega) (Bool.eq_false_iff.mpr fun h => by have := (flush1_7 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

-- One grid point of the second launch: the body run from the point's input blocks and the tile as the point before left it.
set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 32 := lt_of_lt_of_eq t.isLt (show cfg1.N = 32 from N_1)
  by_cases h0 : t.val % 16 = 0
  · rw [outsAt1_A V c t h0]
    unfold out1_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_A_7 c _ _ _ _ _ _ _ _ _ _ _ _ _ _ _ _ _ _ _ _ _ _ _ _ _)
  · rw [outsAt1_B V c t h0]
    simp only [before1_7_B V c t h0]
    unfold out1_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_B_7 c _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
import proofs.«402368_j74302934221059_3_alg».proof.Proof.KI.R0
import proofs.«402368_j74302934221059_3_alg».proof.Proof.KI.R1
import proofs.«402368_j74302934221059_3_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps2 (W2 m ρ c)

theorem W3_of (c : Dev nD) (r : Ref sig .tc) (h : r ∉ hostOps2_W) : W3 m ρ c (Proc.devRef .tc r) = W2 m ρ c (Proc.devRef .tc r) :=
  StableHlo.after_of_writes_sub hostOps2 _ hostOps2_writes h

-- An array the second launch only reads ends as launched: neither launch nor the closing operations write it.
theorem W3_in1 (c : Dev nD) (w : Fin cfg1.W) (hin : (cfg1.win w).isOut = false) (h2 : Pipeline.arrRef spec1 w ∉ hostOps2_W)
    (h0 : ∀ w', Pipeline.arrRef spec0 w' ≠ Pipeline.arrRef spec1 w) :
    W3 m ρ c (Proc.devRef .tc (Pipeline.arrRef spec1 w)) = m ((c : Thread nD τ).loc (Pipeline.arrRef spec1 w)) :=
  (W3_of m ρ c _ h2).trans ((W2_arr m ρ c w).trans (((dat1 (V1 m ρ) c).arrAt_in w hin _).trans
    ((A_eq1 (V1 m ρ) c w).trans (W1_of_ne m ρ c _ h0))))
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

-- Two launches, then the closing host operations: the run ends at the fold W3 of the three stages from the launch memory.
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

theorem run_res : θ_run defs (onTc (τ := τ) (main (F := F))) ⟨m, fun _ => 0, ρ⟩ (fun r => ∀ c : Dev nD,
      r.2.mem ((c.tc : Thread nD τ).loc main_v27) = W3 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v27 (by decide)),
     (h c _ (mem_uc main_arg0 (by decide))).trans (W3_in1 m ρ c 0 rfl (by decide) (by decide)),
     (h c _ (mem_uc main_arg1 (by decide))).trans (W3_main_arg1 m ρ c),
     (h c _ (mem_uc main_arg2 (by decide))).trans (W3_in1 m ρ c 1 rfl (by decide) (by decide)),
     (h c _ (mem_uc main_arg3 (by decide))).trans (W3_in1 m ρ c 2 rfl (by decide) (by decide)),
     (h c _ (mem_uc main_arg4 (by decide))).trans (W3_in1 m ρ c 3 rfl (by decide) (by decide)),
     (h c _ (mem_uc main_arg5 (by decide))).trans (W3_in1 m ρ c 4 rfl (by decide) (by decide)),
     (h c _ (mem_uc main_arg6 (by decide))).trans (W3_in1 m ρ c 5 rfl (by decide) (by decide))⟩) (run_all m ρ)

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SBD : Shape := ⟨2, ![8192, 512]⟩
abbrev SMD : Shape := ⟨2, ![3129, 512]⟩
abbrev SBM : Shape := ⟨2, ![8192, 3129]⟩
abbrev SOut : Shape := ⟨1, ![3]⟩

def eps : EReal := Ideal.ofBits .f32 0x322BCC77#32

def e8192 : EReal := Ideal.ofBits .f32 0x46000000#32
def e3 : EReal := Ideal.ofBits .f32 0x40400000#32
def e1 : EReal := Ideal.ofBits .f32 0x3F800000#32

def row {n k : Nat} (X : (⟨2, ![n, k]⟩ : Shape).Idx → EReal) (b : Fin n) : Fin k → EReal := fun d => X (ix2 b d)

def cnorm (x : Fin 512 → EReal) : EReal := max (Ideal.sqrt (∑ d : Fin 512, x d * x d)) eps

def unit (x : Fin 512 → EReal) (d : Fin 512) : EReal := Ideal.div (x d) (cnorm x)

def cosim (p a : Fin 512 → EReal) : EReal := ∑ d : Fin 512, unit p d * unit a d

def cosRow (A : SMD.Idx → EReal) (p : Fin 512 → EReal) : Fin 3129 → EReal := fun m => cosim p (row A m)

def rmax (y : Fin 3129 → EReal) : EReal := (Finset.univ : Finset (Fin 3129)).fold max ⊥ y

def lseK (y : Fin 3129 → EReal) : EReal := rmax y + Ideal.log (∑ m : Fin 3129, Ideal.exp (y m - rmax y))

def pickK (y : Fin 3129 → EReal) (c : BitVec 32) : EReal :=
  ∑ m : Fin 3129, if BitVec.ofNat 32 m.val = c then y m else 0

def lossK (y : Fin 3129 → EReal) (c : BitVec 32) : EReal := lseK y - pickK y c
def objK (v w : Fin 512 → EReal) : EReal := e1 - ∑ d : Fin 512, unit v d * unit w d

def nceR (y : Fin 3129 → EReal) (k : Fin 3129) : EReal :=
  -(Ideal.log (Ideal.div (Ideal.exp (y k)) (∑ m : Fin 3129, Ideal.exp (y m))))
def logpR (y : Fin 3129 → EReal) (k : Fin 3129) : EReal :=
  (y k - rmax y) - Ideal.log (∑ m : Fin 3129, Ideal.exp (y m - rmax y))

def combine (nce obj cer ceq : EReal) : Fin 3 → EReal :=
  let fusion := Ideal.div ((cer + obj) + nce) e3
  fun i => if i.val = 0 then fusion + e1 * ceq else if i.val = 1 then fusion else ceq

def outK (P : SBD.Idx → EReal) (A : SMD.Idx → EReal) (V W : SBD.Idx → EReal) (Q R : SBM.Idx → EReal)
    (cw : Fin 8192 → BitVec 32) : SOut.Idx → EReal := fun j =>
  combine
    (Ideal.div (∑ b : Fin 8192, lossK (cosRow A (row P b)) (cw b)) e8192)
    (Ideal.div (∑ b : Fin 8192, objK (row V b) (row W b)) e8192)
    (Ideal.div (∑ b : Fin 8192, lossK (row R b) (cw b)) e8192)
    (Ideal.div (∑ b : Fin 8192, lossK (row Q b) (cw b)) e8192) (j 0)

def outR (P : SBD.Idx → EReal) (A : SMD.Idx → EReal) (V W : SBD.Idx → EReal) (Q R : SBM.Idx → EReal)
    (cls : Fin 8192 → Fin 3129) : SOut.Idx → EReal := fun j =>
  combine
    (Ideal.div (∑ b : Fin 8192, nceR (cosRow A (row P b)) (cls b)) e8192)
    (Ideal.div (∑ b : Fin 8192, objK (row V b) (row W b)) e8192)
    (-(Ideal.div (∑ b : Fin 8192, logpR (row R b) (cls b)) e8192))
    (-(Ideal.div (∑ b : Fin 8192, logpR (row Q b) (cls b)) e8192)) (j 0)

end Cert.Spec

end
-- ==== Proof.KRowsA.lean ====
import proofs.«402368_j74302934221059_3_alg».proof.Proof.Gen.KernelIdeal.Skeleton
import proofs.«402368_j74302934221059_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KRows

open Idealize.ShloMosaic Idealize.ShloMosaic.ValueIdx Cert.KernelIdeal Cert.KernelIdeal.Gen Cert.Spec

theorem laneSum_apply {n k : Nat} (v : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction (F := Ideal) .add [1] ⟨1, ![n]⟩ v 0x00000000#32 h hφ hacc (ix1 r) = ∑ d : Fin k, v (ix2 r d) := by
  refine (Ideal.multiReduction_add_single v _ h hφ hacc (ix1 r)).trans ?_
  refine Finset.sum_congr rfl fun d _ => congrArg v ?_
  funext a
  apply Fin.ext
  match a with
  | ⟨0, _⟩ => rfl
  | ⟨1, _⟩ => rfl

theorem column_apply {α : Type} {n : Nat} (x : (⟨1, ![n]⟩ : Shape).Idx → α)
    (h : (⟨1, ![n]⟩ : Shape).ShapeCasts ⟨2, ![n, 1]⟩) (r : Fin n) (z : Fin 1) :
    shapeCast ⟨2, ![n, 1]⟩ x h (ix2 r z) = x (ix1 r) := by
  refine shapeCast_apply x h (ix2 r z) (ix1 r) ?_
  rw [Shape.rowMajor_val_one, Shape.rowMajor_val_two]
  show r.val = r.val * 1 + z.val
  have := z.isLt
  omega

theorem lanes_apply {α : Type} {n k : Nat} (x : (⟨2, ![n, 1]⟩ : Shape).Idx → α)
    (h : (⟨2, ![n, 1]⟩ : Shape).Broadcasts ⟨2, ![n, k]⟩) (r : Fin n) (d : Fin k) :
    broadcastTo ⟨2, ![n, k]⟩ x h (ix2 r d) = x (ix2 r 0) := by
  refine broadcastTo_apply x h (ix2 r d) (ix2 r 0) ?_
  intro a
  match a with
  | ⟨0, _⟩ =>
    show r.val = if n = 1 then 0 else r.val
    have := r.isLt
    split_ifs <;> omega
  | ⟨1, _⟩ =>
    show (0 : Nat) = if (1 : Nat) = 1 then 0 else d.val
    rfl

theorem cnormCol_apply {n : Nat} (x : FVec Ideal ⟨2, ![n, 512]⟩ .f32)
    (h : (⟨2, ![n, 512]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (r : Fin n) :
    maximumf (sqrt (shapeCast ⟨2, ![n, 1]⟩ (multiReduction (F := Ideal) .add [1] ⟨1, ![n]⟩ (mulf x x) 0x00000000#32 h hφ hacc) hc))
        (broadcast ⟨2, ![n, 1]⟩ (Scalar.ofBits (F := Ideal) .f32 0x322BCC77#32)) (ix2 r 0)
      = cnorm (row x r) := by
  show max (Ideal.sqrt (shapeCast ⟨2, ![n, 1]⟩ (multiReduction (F := Ideal) .add [1] ⟨1, ![n]⟩ (mulf x x) 0x00000000#32 h hφ hacc) hc (ix2 r 0))) eps
      = max (Ideal.sqrt (∑ d : Fin 512, row x r d * row x r d)) eps
  refine congrArg (fun t => max (Ideal.sqrt t) eps) ?_
  exact (column_apply _ hc r 0).trans (laneSum_apply (mulf x x) h hφ hacc r)

theorem unitRow_apply {n : Nat} (x : FVec Ideal ⟨2, ![n, 512]⟩ .f32)
    (h : (⟨2, ![n, 512]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩)
    (hb : (⟨2, ![n, 1]⟩ : Shape).Broadcasts ⟨2, ![n, 512]⟩) (r : Fin n) (d : Fin 512) :
    divf x (broadcastTo ⟨2, ![n, 512]⟩
        (maximumf (sqrt (shapeCast ⟨2, ![n, 1]⟩ (multiReduction (F := Ideal) .add [1] ⟨1, ![n]⟩ (mulf x x) 0x00000000#32 h hφ hacc) hc))
          (broadcast ⟨2, ![n, 1]⟩ (Scalar.ofBits (F := Ideal) .f32 0x322BCC77#32))) hb) (ix2 r d)
      = unit (row x r) d :=
  congrArg (Ideal.div (x (ix2 r d))) ((lanes_apply _ hb r d).trans (cnormCol_apply x h hφ hacc hc r))

theorem pay0_apply (x : Vec Ideal S3129x512 .f32) (m : Fin 3129) (d : Fin 512) :
    k0_pay1 (F := Ideal) x (ix2 m d) = unit (row x m) d := by
  unfold k0_pay1
  exact unitRow_apply x reduces_S3129x512_S3129 (.inl rfl) rfl shapeCasts_S3129_S3129x1 broadcasts_S3129x1_S3129x512 m d

theorem pay6_apply (v34 v43 : Vec Ideal S256x512 .f32) (r : Fin 256) :
    k1_pay6 (F := Ideal) v34 (k1_pay5 v34) v43 (ix2 r 0) = objK (row v34 r) (row v43 r) := by
  unfold k1_pay6 k1_pay5
  show e1 - shapeCast S256x1 _ shapeCasts_S256_S256x1 (ix2 r 0) = e1 - ∑ d : Fin 512, unit (row v34 r) d * unit (row v43 r) d
  refine congrArg (fun t => e1 - t) ?_
  refine (column_apply _ shapeCasts_S256_S256x1 r 0).trans ?_
  refine (laneSum_apply _ reduces_S256x512_S256 (.inl rfl) rfl r).trans ?_
  refine Finset.sum_congr rfl fun d _ => ?_
  exact congrArg₂ (· * ·)
    (unitRow_apply v34 reduces_S256x512_S256 (.inl rfl) rfl shapeCasts_S256_S256x1 broadcasts_S256x1_S256x512 r d)
    (unitRow_apply v43 reduces_S256x512_S256 (.inl rfl) rfl shapeCasts_S256_S256x1 broadcasts_S256x1_S256x512 r d)

theorem pay2_apply (a : Fin 8) (l : Fin 128) : k1_pay2 (F := Ideal) (ix2 a l) = (0 : EReal) := by
  unfold k1_pay2
  exact Ideal.ofBits_zero_f32

end Cert.KernelIdeal.KRows

end
-- ==== Proof.KArr0.lean ====
import proofs.«402368_j74302934221059_3_alg».proof.Proof.KI.R0
import proofs.«402368_j74302934221059_3_alg».proof.Proof.KRowsA
import proofs.«402368_j74302934221059_3_alg».proof.Proof.Spec
import Idealize.ShloMosaic.Lib.Pipeline.Value

set_option maxRecDepth 16384

noncomputable section

namespace Cert.KernelIdeal.KVal

open Idealize.ShloMosaic Idealize.ShloMosaic.TcCoe Idealize.ShloMosaic.ValueIdx Cert.KernelIdeal Cert.KernelIdeal.Gen Cert.KernelIdeal.Fr Cert.Spec

variable (V : (c : Dev nD) → (b : Ref sig .tc) → Buf (Elt Ideal) ((c : Thread nD τ).loc b))

theorem zeros2 : (![0, 0] : Fin 2 → Nat) = fun _ => 0 := funext fun a => by fin_cases a <;> rfl

def unitRows (x : S3129x512.Idx → EReal) : S3129x512.Idx → EReal := fun j => unit (row x (j 0)) (j 1)

theorem pay0_eq (x : Vec Ideal S3129x512 .f32) : k0_pay1 (F := Ideal) x = unitRows x := by
  funext j
  show k0_pay1 (F := Ideal) x j = unit (row x (j 0)) (j 1)
  exact (congrArg (k0_pay1 (F := Ideal) x) (eq_ix2 j)).trans (KRows.pay0_apply x (j 0) (j 1))

theorem idx_zero0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

theorem iblk0_eq (c : Dev nD) (t : Fin cfg0.N) :
    (iblk0 (F := Ideal) V c 0 t : S3129x512.Idx → EReal) = (V c main_arg1 : S3129x512.Idx → EReal) := by
  obtain ⟨e0, e1, -, -⟩ := idx_zero0 t
  funext y
  show V c main_arg1 (((cfg0.win 0).blk t).view.emb y) = V c main_arg1 y
  refine congrArg _ ?_
  funext a; apply Fin.ext
  match a with
  | ⟨0, _⟩ => show win0_0.index t (0 : Fin 2) * 3129 + 1 * (y 0).val = (y 0).val; omega
  | ⟨1, _⟩ => show win0_0.index t (1 : Fin 2) * 512 + 1 * (y 1).val = (y 1).val; omega

theorem flushed0_eq (c : Dev nD) (t : Fin cfg0.N) :
    (dat0 (F := Ideal) V c).flushed 1 t = ((cfg0.win 1).blk t).view.read (Elt Ideal) (unitRows (V c main_arg1)) := by
  show (cfg0.win 1).cut (grid0.coords t) ((dat0 (F := Ideal) V c).after 1 t) = _
  rw [after0_1]
  unfold out0_1
  rw [View.canon_unit_zero zeros2]
  simp only [View.ld_unit_zero (S := S3129x512) zeros2]
  rw [pay0_eq, iblk0_eq]
  obtain ⟨-, -, e2, e3⟩ := idx_zero0 t
  funext j
  show unitRows (V c main_arg1) j = unitRows (V c main_arg1) (((cfg0.win 1).blk t).view.emb j)
  refine congrArg _ ?_
  funext a; apply Fin.ext
  match a with
  | ⟨0, _⟩ => show (j 0).val = win0_1.index t (0 : Fin 2) * 3129 + 1 * (j 0).val; omega
  | ⟨1, _⟩ => show (j 1).val = win0_1.index t (1 : Fin 2) * 512 + 1 * (j 1).val; omega

theorem mem_blk0 (t : Fin cfg0.N) (i : S3129x512.Idx) :
    i ∈ ((cfg0.win 1).blk t).view.set ↔ ∀ a : Fin 2, win0_1.index t a * S3129x512.size a ≤ (i a).val ∧ (i a).val < win0_1.index t a * S3129x512.size a + S3129x512.size a := by
  show i ∈ ((View.whole main_v0).slice (win0_1.rect t)).set ↔ _
  rw [View.set_slice_whole, Rect.mem_set_unit]
  exact Iff.rfl

theorem cover0 (i : S3129x512.Idx) :
    ∃ t : Fin cfg0.N, (cfg0.win 1).flush t = true ∧ i ∈ ((cfg0.win 1).blk t).view.set := by
  refine ⟨t0_0, flush0_1 t0_0, ?_⟩
  rw [mem_blk0]
  obtain ⟨-, -, e2, e3⟩ := idx_zero0 t0_0
  intro a
  match a with
  | ⟨0, _⟩ =>
    show win0_1.index t0_0 (0 : Fin 2) * 3129 ≤ (i 0).val ∧ (i 0).val < win0_1.index t0_0 (0 : Fin 2) * 3129 + 3129
    have h0 : (i 0).val < 3129 := (i 0).isLt
    omega
  | ⟨1, _⟩ =>
    show win0_1.index t0_0 (1 : Fin 2) * 512 ≤ (i 1).val ∧ (i 1).val < win0_1.index t0_0 (1 : Fin 2) * 512 + 512
    have h1 : (i 1).val < 512 := (i 1).isLt
    omega

-- The first launch leaves every class row divided by its clamped norm.
theorem arr0_eq (c : Dev nD) : (dat0 (F := Ideal) V c).arrAt 1 cfg0.N = unitRows (V c main_arg1) :=
  (dat0 (F := Ideal) V c).arrAt_eq_of_cover 1 (unitRows (V c main_arg1)) (fun t _ => flushed0_eq V c t) cover0

end Cert.KernelIdeal.KVal

end
-- ==== Proof.KI.R1Val.lean ====
import proofs.«402368_j74302934221059_3_alg».proof.Proof.KI.R1
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem hz : (![0, 0] : Fin 2 → Nat) = fun _ => 0 := by
  funext a; fin_cases a <;> rfl

set_option maxHeartbeats 1000000 in

theorem out1_A_7_eq (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : cond1_0 i)
    (x0 x1 x2 : Vec F S256x512 .f32) (x3 x4 : Vec F S256x3129 .f32) (x5 : Vec F S256x1 .i32) (x6 : Vec F S3129x512 .bf16) :
    out1_A_7 c i arg2 harg2 arg3 harg3 arg4 harg4 arg5 harg5 arg6 harg6 arg7 harg7 arg8 harg8 arg9 harg9 hc0 x0 x1 x2 x3 x4 x5 x6
      = k1_pay1 (k1_pay3 x5) (k1_pay4 x5 x0 x6) (k1_pay6 x1 (k1_pay5 x1) x2) (k1_pay7 (k1_pay3 x5) x3) x4 (k1_pay8 x4) (k1_pay2 (F := F)) := by
  unfold out1_A_7
  rw [View.read_writes_eq_canon _ _ _ (cover1_A_7 c i arg2 harg2 arg3 harg3 arg4 harg4 arg5 harg5 arg6 harg6 arg7 harg7 arg8 harg8 arg9 harg9 hc0 x0 x1 x2 x3 x4 x5 x6)]
  unfold kernelRun1_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, View.ld_unit_zero (S := S256x512) hz, View.ld_unit_zero (S := S256x3129) hz, View.ld_unit_zero (S := S256x1) hz, View.ld_unit_zero (S := S3129x512) hz, View.ld_unit_zero (S := S8x128) hz]

set_option maxHeartbeats 1000000 in

theorem out1_B_7_eq (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3129 .f32) (harg5 : arg5.IsWhole) (arg6 : Memref sig .tc .vmem S256x3129 .f32) (harg6 : arg6.IsWhole) (arg7 : Memref sig .tc .vmem S256x1 .i32) (harg7 : arg7.IsWhole) (arg8 : Memref sig .tc .vmem S3129x512 .bf16) (harg8 : arg8.IsWhole) (arg9 : Memref sig .tc .vmem S8x128 .f32) (harg9 : arg9.IsWhole) (hc0 : ¬cond1_0 i)
    (x0 x1 x2 : Vec F S256x512 .f32) (x3 x4 : Vec F S256x3129 .f32) (x5 : Vec F S256x1 .i32) (x6 : Vec F S3129x512 .bf16) (xo7 : Vec F S8x128 .f32) :
    out1_B_7 c i arg2 harg2 arg3 harg3 arg4 harg4 arg5 harg5 arg6 harg6 arg7 harg7 arg8 harg8 arg9 harg9 hc0 x0 x1 x2 x3 x4 x5 x6 xo7
      = k1_pay1 (k1_pay3 x5) (k1_pay4 x5 x0 x6) (k1_pay6 x1 (k1_pay5 x1) x2) (k1_pay7 (k1_pay3 x5) x3) x4 (k1_pay8 x4) xo7 := by
  unfold out1_B_7
  rw [View.read_writes_eq_canon _ _ _ (cover1_B_7 c i arg2 harg2 arg3 harg3 arg4 harg4 arg5 harg5 arg6 harg6 arg7 harg7 arg8 harg8 arg9 harg9 hc0 x0 x1 x2 x3 x4 x5 x6 xo7)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S256x3129) hz, View.ld_unit_zero (S := S256x1) hz, View.ld_unit_zero (S := S3129x512) hz, View.ld_unit_zero (S := S8x128) hz]

end Cert.KernelIdeal.Fr

end
-- ==== Proof.KRowsB.lean ====
import proofs.«402368_j74302934221059_3_alg».proof.Proof.Gen.KernelIdeal.Skeleton
import proofs.«402368_j74302934221059_3_alg».proof.Proof.Spec
import proofs.«402368_j74302934221059_3_alg».proof.Proof.KRowsA
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KRows

open Idealize.ShloMosaic Idealize.ShloMosaic.ValueIdx Cert.KernelIdeal Cert.KernelIdeal.Gen Cert.Spec

theorem col_apply {α : Type} (v : S256.Idx → α) (r : Fin 256) (c : Fin 1) :
    shapeCast S256x1 v shapeCasts_S256_S256x1 (ix2 r c) = v (ix1 r) := by
  refine shapeCast_apply v _ (ix2 r c) (ix1 r) ?_
  rw [Shape.rowMajor_val_one, Shape.rowMajor_val_two]
  show r.val = r.val * 1 + c.val
  omega

theorem spreadN_apply {α : Type} (v : S256x1.Idx → α) (r : Fin 256) (m : Fin 3129) :
    broadcastTo S256x3129 v broadcasts_S256x1_S256x3129 (ix2 r m) = v (ix2 r 0) := by
  refine broadcastTo_apply v _ (ix2 r m) (ix2 r 0) fun a => ?_
  match a with
  | ⟨0, _⟩ => rfl
  | ⟨1, _⟩ => rfl

theorem liftN (r : Fin 256) (m : Fin 3129) : reduces_S256x3129_S256.lift (ix1 r) m = ix2 r m := by
  funext a
  apply Fin.ext
  match a with
  | ⟨0, _⟩ => rfl
  | ⟨1, _⟩ => rfl

theorem laneSumN_apply (x : FVec Ideal S256x3129 .f32) (r : Fin 256) :
    multiReduction (F := Ideal) .add [1] S256 x 0x00000000#32 reduces_S256x3129_S256 (.inl rfl) rfl (ix1 r)
      = ∑ m : Fin 3129, x (ix2 r m) := by
  refine (Ideal.multiReduction_add_single x 0x00000000#32 reduces_S256x3129_S256 (.inl rfl) rfl (ix1 r)).trans ?_
  exact Finset.sum_congr rfl fun m _ => congrArg x (liftN r m)

theorem negInf_word : (FloatOps.ofBits (F := Ideal) .f32 0xFF800000#32 : EReal) = ⊥ := by
  show Ideal.ofBits .f32 0xFF800000#32 = ⊥
  simp [Ideal.ofBits, Ideal.ieee]

theorem laneMaxN_apply (x : FVec Ideal S256x3129 .f32) (r : Fin 256) :
    multiReduction (F := Ideal) .maximumf [1] S256 x 0xFF800000#32 reduces_S256x3129_S256 (.inl rfl) rfl (ix1 r)
      = rmax (row x r) := by
  refine (Ideal.multiReduction_maximumf_single x 0xFF800000#32 reduces_S256x3129_S256 (.inl rfl) rfl (ix1 r)).trans ?_
  have hf : (x ∘ reduces_S256x3129_S256.lift (ix1 r)) = row x r := funext fun m => congrArg x (liftN r m)
  rw [negInf_word, hf]
  rfl

theorem pay3_apply (v3 : Vec Ideal S256x1 .i32) (r : Fin 256) (m : Fin 3129) :
    k1_pay3 (F := Ideal) v3 (ix2 r m) = if BitVec.ofNat 32 m.val = v3 (ix2 r 0) then 1#1 else 0#1 := by
  unfold k1_pay3
  show IntOp.cmpi .eq (iota .tc S256x3129 32 [1] iota_S256x3129_d1_w32 (ix2 r m))
    (broadcastTo S256x3129 v3 broadcasts_S256x1_S256x3129 (ix2 r m)) = _
  rw [iota_single_apply, spreadN_apply]
  show BitVec.ofBool (BitVec.ofNat 32 m.val == v3 (ix2 r 0)) = _
  by_cases h : BitVec.ofNat 32 m.val = v3 (ix2 r 0)
  · rw [if_pos h, beq_iff_eq.2 h]; rfl
  · rw [if_neg h, beq_eq_false_iff_ne.2 h]; rfl

theorem expv_apply {s : Shape} (a : FVec Ideal s .f32) (i : s.Idx) : exp a i = Ideal.exp (a i) := rfl
theorem logv_apply {s : Shape} (a : FVec Ideal s .f32) (i : s.Idx) : log a i = Ideal.log (a i) := rfl

def maxCol (x : FVec Ideal S256x3129 .f32) : FVec Ideal S256x1 .f32 :=
  shapeCast S256x1 (multiReduction (F := Ideal) .maximumf [1] S256 x 0xFF800000#32 reduces_S256x3129_S256 (.inl rfl) rfl)
    shapeCasts_S256_S256x1

theorem maxCol_apply (x : FVec Ideal S256x3129 .f32) (r : Fin 256) (c : Fin 1) :
    maxCol x (ix2 r c) = rmax (row x r) := by
  unfold maxCol
  rw [col_apply, laneMaxN_apply]

def lseCol (x : FVec Ideal S256x3129 .f32) : FVec Ideal S256x1 .f32 :=
  addf (maxCol x)
    (log (shapeCast S256x1
      (multiReduction (F := Ideal) .add [1] S256
        (exp (subf x (broadcastTo S256x3129 (maxCol x) broadcasts_S256x1_S256x3129)))
        0x00000000#32 reduces_S256x3129_S256 (.inl rfl) rfl)
      shapeCasts_S256_S256x1))

theorem lseCol_apply (x : FVec Ideal S256x3129 .f32) (r : Fin 256) (c : Fin 1) :
    lseCol x (ix2 r c) = lseK (row x r) := by
  unfold lseCol lseK
  rw [addf_apply, logv_apply, maxCol_apply, col_apply, laneSumN_apply]
  refine congrArg (fun s => rmax (row x r) + Ideal.log s) (Finset.sum_congr rfl fun m _ => ?_)
  rw [expv_apply, subf_apply, spreadN_apply, maxCol_apply]
  rfl

def pickCol (msk : IVec S256x3129 1) (x : FVec Ideal S256x3129 .f32) : FVec Ideal S256x1 .f32 :=
  shapeCast S256x1
    (multiReduction (F := Ideal) .add [1] S256
      (select msk x (broadcast S256x3129 (Scalar.ofBits (F := Ideal) .f32 0x00000000#32)))
      0x00000000#32 reduces_S256x3129_S256 (.inl rfl) rfl)
    shapeCasts_S256_S256x1

theorem pickCol_apply (v3 : Vec Ideal S256x1 .i32) (x : FVec Ideal S256x3129 .f32) (r : Fin 256) (c : Fin 1) :
    pickCol (k1_pay3 (F := Ideal) v3) x (ix2 r c) = pickK (row x r) (v3 (ix2 r 0)) := by
  unfold pickCol pickK
  rw [col_apply, laneSumN_apply]
  refine Finset.sum_congr rfl fun m _ => ?_
  rw [select_apply, broadcast_apply, pay3_apply]
  show Scalar.select _ (x (ix2 r m)) (Ideal.ofBits .f32 0x00000000#32) = _
  rw [Ideal.ofBits_zero_f32]
  by_cases h : BitVec.ofNat 32 m.val = v3 (ix2 r 0)
  · rw [if_pos h, if_pos h, select_one]; rfl
  · rw [if_neg h, if_neg h, select_zero]

theorem pay8_eq (x : Vec Ideal S256x3129 .f32) : k1_pay8 (F := Ideal) x = lseCol x := rfl

theorem pay8_apply (v72 : Vec Ideal S256x3129 .f32) (r : Fin 256) :
    k1_pay8 (F := Ideal) v72 (ix2 r 0) = lseK (row v72 r) := by
  rw [pay8_eq, lseCol_apply]

theorem pay7_eq (msk : IVec S256x3129 1) (x : Vec Ideal S256x3129 .f32) :
    k1_pay7 (F := Ideal) msk x = subf (lseCol x) (pickCol msk x) := rfl

theorem pay7_apply (v3 : Vec Ideal S256x1 .i32) (v57 : Vec Ideal S256x3129 .f32) (r : Fin 256) :
    k1_pay7 (F := Ideal) (k1_pay3 v3) v57 (ix2 r 0) = lossK (row v57 r) (v3 (ix2 r 0)) := by
  rw [pay7_eq, subf_apply, lseCol_apply, pickCol_apply]
  rfl

theorem lhs_cos_0 (i : S256x3129.Idx) (q : dot_S256x512_S3129x512_S256x3129_1_1_0_0_n_n.contr.Idx) :
    (dot_S256x512_S3129x512_S256x3129_1_1_0_0_n_n.lhsIdx i q 0).val = (i 0).val := by
  unfold DotDims.lhsIdx
  rw [dif_neg (show ¬(0 : Fin S256x512.rank) ∈ dot_S256x512_S3129x512_S256x3129_1_1_0_0_n_n.lhsBatch by decide), dif_pos (show (0 : Fin S256x512.rank) ∈ dot_S256x512_S3129x512_S256x3129_1_1_0_0_n_n.lhsNonContracting by decide)]
  rfl
theorem lhs_cos_1 (i : S256x3129.Idx) (q : dot_S256x512_S3129x512_S256x3129_1_1_0_0_n_n.contr.Idx) :
    (dot_S256x512_S3129x512_S256x3129_1_1_0_0_n_n.lhsIdx i q 1).val = (q ⟨0, by decide⟩).val :=
  dot_S256x512_S3129x512_S256x3129_1_1_0_0_n_n.lhsIdx_val_of_single rfl i q
theorem rhs_cos_0 (i : S256x3129.Idx) (q : dot_S256x512_S3129x512_S256x3129_1_1_0_0_n_n.contr.Idx) :
    (dot_S256x512_S3129x512_S256x3129_1_1_0_0_n_n.rhsIdx i q 0).val = (i 1).val := by
  unfold DotDims.rhsIdx
  rw [dif_neg (show ¬(0 : Fin S3129x512.rank) ∈ dot_S256x512_S3129x512_S256x3129_1_1_0_0_n_n.rhsBatch by decide), dif_pos (show (0 : Fin S3129x512.rank) ∈ dot_S256x512_S3129x512_S256x3129_1_1_0_0_n_n.rhsNonContracting by decide)]
  rfl
theorem rhs_cos_1 (i : S256x3129.Idx) (q : dot_S256x512_S3129x512_S256x3129_1_1_0_0_n_n.contr.Idx) :
    (dot_S256x512_S3129x512_S256x3129_1_1_0_0_n_n.rhsIdx i q 1).val = (q ⟨0, by decide⟩).val :=
  dot_S256x512_S3129x512_S256x3129_1_1_0_0_n_n.rhsIdx_val_of_single rfl i q

def unitBlk (x : FVec Ideal S256x512 .f32) : FVec Ideal S256x512 .bf16 :=
  truncf .bf16
    (divf x (broadcastTo S256x512
      (maximumf (sqrt (shapeCast S256x1 (multiReduction (F := Ideal) .add [1] S256 (mulf x x) 0x00000000#32 reduces_S256x512_S256 (.inl rfl) rfl) shapeCasts_S256_S256x1))
        (broadcast S256x1 (Scalar.ofBits (F := Ideal) .f32 0x322BCC77#32))) broadcasts_S256x1_S256x512))
    bitsLt_bf16_f32

theorem unitBlk_apply (x : FVec Ideal S256x512 .f32) (r : Fin 256) (d : Fin 512) :
    unitBlk x (ix2 r d) = unit (row x r) d := by
  unfold unitBlk
  rw [truncf_apply]
  exact unitRow_apply x reduces_S256x512_S256 (.inl rfl) rfl shapeCasts_S256_S256x1 broadcasts_S256x1_S256x512 r d

def cosBlk (x : FVec Ideal S256x512 .f32) (w : FVec Ideal S3129x512 .bf16) : FVec Ideal S256x3129 .f32 :=
  matmul dot_S256x512_S3129x512_S256x3129_1_1_0_0_n_n none (unitBlk x)
    (shapeCast S3129x512 w shapeCasts_S3129x512_S3129x512) (constant (F := Ideal) S256x3129 .f32 0x00000000#32)

theorem cosBlk_apply (x : FVec Ideal S256x512 .f32) (w : FVec Ideal S3129x512 .bf16) (r : Fin 256) (m : Fin 3129) :
    cosBlk x w (ix2 r m) = ∑ d : Fin 512, unit (row x r) d * w (ix2 m d) := by
  unfold cosBlk
  rw [shapeCast_self]
  simp only [matmul]
  rw [Ideal.matmul_constant_zero_apply, ← Equiv.sum_comp (contrEquiv1 dot_S256x512_S3129x512_S256x3129_1_1_0_0_n_n 512 rfl rfl).symm]
  refine Finset.sum_congr rfl fun k _ => ?_
  have hk := contrEquiv1_symm_val dot_S256x512_S3129x512_S256x3129_1_1_0_0_n_n 512 rfl rfl k
  have el : dot_S256x512_S3129x512_S256x3129_1_1_0_0_n_n.lhsIdx (ix2 r m) ((contrEquiv1 dot_S256x512_S3129x512_S256x3129_1_1_0_0_n_n 512 rfl rfl).symm k) = ix2 r k := funext fun a => Fin.ext (by
    match a with
    | ⟨0, _⟩ => exact lhs_cos_0 _ _
    | ⟨1, _⟩ => exact (lhs_cos_1 _ _).trans hk)
  have er : dot_S256x512_S3129x512_S256x3129_1_1_0_0_n_n.rhsIdx (ix2 r m) ((contrEquiv1 dot_S256x512_S3129x512_S256x3129_1_1_0_0_n_n 512 rfl rfl).symm k) = ix2 m k := funext fun a => Fin.ext (by
    match a with
    | ⟨0, _⟩ => exact rhs_cos_0 _ _
    | ⟨1, _⟩ => exact (rhs_cos_1 _ _).trans hk)
  rw [el, er, unitBlk_apply]

theorem pay4_eq (v3 : Vec Ideal S256x1 .i32) (v7 : Vec Ideal S256x512 .f32) (v17 : Vec Ideal S3129x512 .bf16) :
    k1_pay4 (F := Ideal) v3 v7 v17
      = subf (lseCol (cosBlk v7 v17)) (pickCol (k1_pay3 (F := Ideal) v3) (cosBlk v7 v17)) := rfl

theorem pay4_apply (v3 : Vec Ideal S256x1 .i32) (v7 : Vec Ideal S256x512 .f32) (v17 : Vec Ideal S3129x512 .bf16) (r : Fin 256) :
    k1_pay4 (F := Ideal) v3 v7 v17 (ix2 r 0)
      = lossK (fun m : Fin 3129 => ∑ d : Fin 512, unit (row v7 r) d * v17 (ix2 m d)) (v3 (ix2 r 0)) := by
  rw [pay4_eq, subf_apply, lseCol_apply, pickCol_apply]
  have hrow : row (cosBlk v7 v17) r = fun m : Fin 3129 => ∑ d : Fin 512, unit (row v7 r) d * v17 (ix2 m d) :=
    funext fun m => cosBlk_apply v7 v17 r m
  rw [hrow]
  rfl

end Cert.KernelIdeal.KRows

end
-- ==== Proof.KRowsC.lean ====
import proofs.«402368_j74302934221059_3_alg».proof.Proof.Gen.KernelIdeal.Skeleton
import proofs.«402368_j74302934221059_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KRows

open Idealize.ShloMosaic Idealize.ShloMosaic.ValueIdx Cert.KernelIdeal Cert.KernelIdeal.Gen Cert.Spec

theorem colsum_apply (v : FVec Ideal S256x1 .f32) (h : S256x1.Reduces [0] S1) (hφ : FKind.Formats .f32)
    (hacc : (0x00000000#32 : BitVec 32) = FKind.add.neutral .f32 hφ) (hc : S1.ShapeCasts S1x1) (u w : Fin 1) :
    shapeCast S1x1 (multiReduction (F := Ideal) .add [0] S1 v 0x00000000#32 h hφ hacc) hc (ix2 u w)
      = ∑ r : Fin 256, v (ix2 r 0) := by
  refine (shapeCast_apply _ hc (ix2 u w) (ix1 (0 : Fin 1)) ?_).trans ?_
  · rw [Shape.rowMajor_val_one, Shape.rowMajor_val_two]
    show (0 : Nat) = u.val * 1 + w.val
    omega
  · refine (Ideal.multiReduction_add_single v _ h hφ hacc (ix1 (0 : Fin 1))).trans ?_
    show ∑ k : Fin 256, v (h.lift (ix1 (0 : Fin 1)) k) = ∑ r : Fin 256, v (ix2 r 0)
    refine Finset.sum_congr rfl fun k _ => congrArg v ?_
    exact Shape.idx_ext₂ rfl rfl

theorem rowpick_apply (c : IVec S256x3129 1) (y : Vec Ideal S256x3129 .f32) (h : S256x3129.Reduces [1] S256)
    (hφ : FKind.Formats .f32) (hacc : (0x00000000#32 : BitVec 32) = FKind.add.neutral .f32 hφ)
    (hc : S256.ShapeCasts S256x1) (r : Fin 256) (u : Fin 1) :
    shapeCast S256x1 (multiReduction (F := Ideal) .add [1] S256
        (select c y (broadcast S256x3129 (Scalar.ofBits (F := Ideal) .f32 0x00000000#32))) 0x00000000#32 h hφ hacc) hc (ix2 r u)
      = ∑ m : Fin 3129, (if c (ix2 r m) = 1#1 then y (ix2 r m) else (0 : EReal)) := by
  refine (shapeCast_apply _ hc (ix2 r u) (ix1 r) ?_).trans ?_
  · rw [Shape.rowMajor_val_one, Shape.rowMajor_val_two]
    show r.val = r.val * 1 + u.val
    omega
  · refine (Ideal.multiReduction_add_single _ _ h hφ hacc (ix1 r)).trans ?_
    show ∑ k : Fin 3129, select c y (broadcast S256x3129 (Scalar.ofBits (F := Ideal) .f32 0x00000000#32)) (h.lift (ix1 r) k) = _
    refine Finset.sum_congr rfl fun k _ => ?_
    have e : h.lift (ix1 r) k = ix2 r k := Shape.idx_ext₂ rfl rfl
    rw [e]
    show (if c (ix2 r k) = 1 then y (ix2 r k) else Ideal.ofBits .f32 0x00000000#32) = _
    rw [Ideal.ofBits_zero_f32]
    rfl

section Cat
variable {α : Type}

abbrev lanePieces (x0 x1 x2 x3 : S1x1.Idx → α) (c : α) : List ((s : Shape) × (s.Idx → α)) :=
  [⟨S1x1, x0⟩, ⟨S1x1, x1⟩, ⟨S1x1, x2⟩, ⟨S1x1, x3⟩, ⟨S1x124, broadcast S1x124 c⟩]

theorem laneCat_apply (x0 x1 x2 x3 : S1x1.Idx → α) (c : α)
    (h : Shape.Concatenates [S1x1, S1x1, S1x1, S1x1, S1x124] S1x128 1) (u : Fin 1) (l : Fin 128) :
    concatenate S1x128 1 [⟨S1x1, x0⟩, ⟨S1x1, x1⟩, ⟨S1x1, x2⟩, ⟨S1x1, x3⟩, ⟨S1x124, broadcast S1x124 c⟩] h (ix2 u l)
      = if l.val = 0 then x0 (ix2 0 0) else if l.val = 1 then x1 (ix2 0 0) else if l.val = 2 then x2 (ix2 0 0)
        else if l.val = 3 then x3 (ix2 0 0) else c := by
  have hu : u.val = 0 := by omega
  by_cases h0 : l.val = 0
  · rw [if_pos h0]
    exact concatenate_apply_piece (t := S1x128) (1 : Fin 2) (lanePieces x0 x1 x2 x3 c) h (ix2 u l) 0 (by show 0 < 5; omega) S1x1 x0 rfl rfl 0 rfl (ix2 0 0)
      (fun b => match b with | ⟨0, _⟩ => fun _ => hu.symm | ⟨1, _⟩ => fun hb => absurd rfl hb)
      (by show 0 + 0 = l.val; omega)
  rw [if_neg h0]
  by_cases h1 : l.val = 1
  · rw [if_pos h1]
    exact concatenate_apply_piece (t := S1x128) (1 : Fin 2) (lanePieces x0 x1 x2 x3 c) h (ix2 u l) 1 (by show 1 < 5; omega) S1x1 x1 rfl rfl 1 rfl (ix2 0 0)
      (fun b => match b with | ⟨0, _⟩ => fun _ => hu.symm | ⟨1, _⟩ => fun hb => absurd rfl hb)
      (by show 1 + 0 = l.val; omega)
  rw [if_neg h1]
  by_cases h2 : l.val = 2
  · rw [if_pos h2]
    exact concatenate_apply_piece (t := S1x128) (1 : Fin 2) (lanePieces x0 x1 x2 x3 c) h (ix2 u l) 2 (by show 2 < 5; omega) S1x1 x2 rfl rfl 2 rfl (ix2 0 0)
      (fun b => match b with | ⟨0, _⟩ => fun _ => hu.symm | ⟨1, _⟩ => fun hb => absurd rfl hb)
      (by show 2 + 0 = l.val; omega)
  rw [if_neg h2]
  by_cases h3 : l.val = 3
  · rw [if_pos h3]
    exact concatenate_apply_piece (t := S1x128) (1 : Fin 2) (lanePieces x0 x1 x2 x3 c) h (ix2 u l) 3 (by show 3 < 5; omega) S1x1 x3 rfl rfl 3 rfl (ix2 0 0)
      (fun b => match b with | ⟨0, _⟩ => fun _ => hu.symm | ⟨1, _⟩ => fun hb => absurd rfl hb)
      (by show 3 + 0 = l.val; omega)
  rw [if_neg h3]
  have hl : l.val - 4 < 124 := by omega
  exact concatenate_apply_piece (t := S1x128) (1 : Fin 2) (lanePieces x0 x1 x2 x3 c) h (ix2 u l) 4 (by show 4 < 5; omega) S1x124 (broadcast S1x124 c) rfl rfl 4 rfl
    (ix2 0 ⟨l.val - 4, hl⟩)
    (fun b => match b with | ⟨0, _⟩ => fun _ => hu.symm | ⟨1, _⟩ => fun hb => absurd rfl hb)
    (by show 4 + (l.val - 4) = l.val; omega)

theorem rows_apply (X : S1x128.Idx → α) (c : α) (h : Shape.Concatenates [S1x128, S7x128] S8x128 0)
    (a : Fin 8) (l : Fin 128) :
    concatenate S8x128 0 [⟨S1x128, X⟩, ⟨S7x128, broadcast S7x128 c⟩] h (ix2 a l)
      = if a.val = 0 then X (ix2 0 l) else c := by
  by_cases ha : a.val = 0
  · rw [if_pos ha]
    exact concatenate_pair_apply_left (0 : Fin 2) X _ h (ix2 a l) rfl (ix2 0 l)
      (fun b => match b with | ⟨0, _⟩ => ha.symm | ⟨1, _⟩ => rfl)
  · rw [if_neg ha]
    have hlt : a.val - 1 < 7 := by omega
    exact concatenate_pair_apply_right (0 : Fin 2) X (broadcast S7x128 c) h (ix2 a l) rfl rfl (ix2 ⟨a.val - 1, hlt⟩ l)
      (fun b => match b with | ⟨0, _⟩ => fun hb => absurd rfl hb | ⟨1, _⟩ => fun _ => rfl)
      (by show a.val - 1 + 1 = a.val; omega)

end Cat

theorem pay1_apply (v6 : IVec S256x3129 1) (v33 v56 v71 : FVec Ideal S256x1 .f32) (v72 : Vec Ideal S256x3129 .f32)
    (v81 : FVec Ideal S256x1 .f32) (v99 : Vec Ideal S8x128 .f32) (a : Fin 8) (l : Fin 128) :
    k1_pay1 (F := Ideal) v6 v33 v56 v71 v72 v81 v99 (ix2 a l)
      = v99 (ix2 a l) + (if a.val = 0 then
          (if l.val = 0 then ∑ r : Fin 256, v33 (ix2 r 0)
           else if l.val = 1 then ∑ r : Fin 256, v56 (ix2 r 0)
           else if l.val = 2 then ∑ r : Fin 256, (v81 (ix2 r 0) - ∑ m : Fin 3129, (if v6 (ix2 r m) = 1#1 then v72 (ix2 r m) else 0))
           else if l.val = 3 then ∑ r : Fin 256, v71 (ix2 r 0)
           else 0)
         else 0) := by
  unfold k1_pay1
  refine (addf_apply _ _ (ix2 a l)).trans ?_
  rw [shapeCast_self]
  refine congrArg (v99 (ix2 a l) + ·) ?_
  refine (rows_apply _ _ _ a l).trans ?_
  by_cases ha : a.val = 0
  · refine (if_pos ha).trans (Eq.trans ?_ (if_pos ha).symm)
    refine (laneCat_apply _ _ _ _ _ _ 0 l).trans ?_
    by_cases h0 : l.val = 0
    · refine (if_pos h0).trans (Eq.trans ?_ (if_pos h0).symm)
      exact colsum_apply v33 _ _ _ _ 0 0
    refine (if_neg h0).trans (Eq.trans ?_ (if_neg h0).symm)
    by_cases h1 : l.val = 1
    · refine (if_pos h1).trans (Eq.trans ?_ (if_pos h1).symm)
      exact colsum_apply v56 _ _ _ _ 0 0
    refine (if_neg h1).trans (Eq.trans ?_ (if_neg h1).symm)
    by_cases h2 : l.val = 2
    · refine (if_pos h2).trans (Eq.trans ?_ (if_pos h2).symm)
      refine (colsum_apply _ _ _ _ _ 0 0).trans ?_
      refine Finset.sum_congr rfl fun r _ => ?_
      refine (subf_apply _ _ (ix2 r 0)).trans ?_
      exact congrArg (v81 (ix2 r 0) - ·) (rowpick_apply v6 v72 _ _ _ _ r 0)
    refine (if_neg h2).trans (Eq.trans ?_ (if_neg h2).symm)
    by_cases h3 : l.val = 3
    · refine (if_pos h3).trans (Eq.trans ?_ (if_pos h3).symm)
      exact colsum_apply v71 _ _ _ _ 0 0
    refine (if_neg h3).trans (Eq.trans ?_ (if_neg h3).symm)
    exact Ideal.ofBits_zero_f32
  · refine (if_neg ha).trans (Eq.trans ?_ (if_neg ha).symm)
    exact Ideal.ofBits_zero_f32

end Cert.KernelIdeal.KRows

end
-- ==== Proof.KAcc.lean ====
import Mathlib.Data.EReal.Basic
import Mathlib.Algebra.BigOperators.Fin
import Mathlib.Data.Fintype.BigOperators
import Mathlib.Logic.Equiv.Fin.Basic

noncomputable section

namespace Cert.Spec

open scoped BigOperators

theorem acc_range (p acc : ℕ → EReal)
    (hA : ∀ t, t % 16 = 0 → acc t = 0 + p t) (hB : ∀ t, t % 16 ≠ 0 → acc t = acc (t - 1) + p t) (c : ℕ) :
    ∀ i, i ≤ 15 → acc (16 * c + i) = ∑ k ∈ Finset.range (i + 1), p (16 * c + k)
  | 0, _ => by
    rw [Finset.sum_range_one, Nat.add_zero, hA (16 * c) (by omega), zero_add]
  | i + 1, hi => by
    have ih := acc_range p acc hA hB c i (by omega)
    have e : 16 * c + (i + 1) - 1 = 16 * c + i := by omega
    rw [Finset.sum_range_succ, ← ih, hB (16 * c + (i + 1)) (by omega), e]

-- An accumulator reset at the multiples of 16 and added to in between holds, 15 steps after a reset, the sum of the 16 addends.
theorem acc_closed (p acc : ℕ → EReal)
    (hA : ∀ t, t % 16 = 0 → acc t = 0 + p t) (hB : ∀ t, t % 16 ≠ 0 → acc t = acc (t - 1) + p t) (c : ℕ) :
    acc (16 * c + 15) = ∑ i : Fin 16, p (16 * c + i.val) :=
  (acc_range p acc hA hB c 15 le_rfl).trans (Finset.sum_range fun k => p (16 * c + k))

theorem sum_fin_mul (m n : ℕ) (f : Fin (m * n) → EReal) :
    ∑ b : Fin (m * n), f b = ∑ a : Fin m, ∑ r : Fin n, f (finProdFinEquiv (a, r)) :=
  (Equiv.sum_comp finProdFinEquiv f).symm.trans (Fintype.sum_prod_type _)

theorem sum_blocks' (f : Fin 8192 → EReal) :
    ∑ c : Fin 2, ∑ i : Fin 16, ∑ r : Fin 256, f ⟨4096 * c.val + 256 * i.val + r.val, by omega⟩
      = ∑ b : Fin 8192, f b := by
  have h1 : ∑ b : Fin 8192, f b = ∑ t : Fin 32, ∑ r : Fin 256, f ⟨256 * t.val + r.val, by omega⟩ := by
    refine (sum_fin_mul 32 256 f).trans ?_
    refine Finset.sum_congr rfl fun t _ => Finset.sum_congr rfl fun r _ => congrArg f (Fin.ext ?_)
    show r.val + 256 * t.val = 256 * t.val + r.val
    omega
  have h2 : ∀ g : Fin 32 → EReal, ∑ t : Fin 32, g t = ∑ c : Fin 2, ∑ i : Fin 16, g ⟨16 * c.val + i.val, by omega⟩ := by
    intro g
    refine (sum_fin_mul 2 16 g).trans ?_
    refine Finset.sum_congr rfl fun c _ => Finset.sum_congr rfl fun i _ => congrArg g (Fin.ext ?_)
    show i.val + 16 * c.val = 16 * c.val + i.val
    omega
  rw [h1, h2]
  refine Finset.sum_congr rfl fun c _ => Finset.sum_congr rfl fun i _ => Finset.sum_congr rfl fun r _ =>
    congrArg f (Fin.ext ?_)
  show 4096 * c.val + 256 * i.val + r.val = 256 * (16 * c.val + i.val) + r.val
  omega

theorem sum_blocks (f : Fin 8192 → EReal) :
    (∑ i : Fin 16, ∑ r : Fin 256, f ⟨256 * (16 * 0 + i.val) + r.val, by omega⟩)
      + (∑ i : Fin 16, ∑ r : Fin 256, f ⟨256 * (16 * 1 + i.val) + r.val, by omega⟩) = ∑ b : Fin 8192, f b := by
  rw [← sum_blocks' f, Fin.sum_univ_two]
  refine congrArg₂ (· + ·) ?_ ?_
  · refine Finset.sum_congr rfl fun i _ => Finset.sum_congr rfl fun r _ => congrArg f (Fin.ext ?_)
    show 256 * (16 * 0 + i.val) + r.val = 4096 * 0 + 256 * i.val + r.val
    omega
  · refine Finset.sum_congr rfl fun i _ => Finset.sum_congr rfl fun r _ => congrArg f (Fin.ext ?_)
    show 256 * (16 * 1 + i.val) + r.val = 4096 * 1 + 256 * i.val + r.val
    omega

end Cert.Spec

end
-- ==== Proof.KBlocks.lean ====
import proofs.«402368_j74302934221059_3_alg».proof.Proof.KI.R1Runs
import proofs.«402368_j74302934221059_3_alg».proof.Proof.Gen.KernelIdeal.Points
import proofs.«402368_j74302934221059_3_alg».proof.Proof.Gen.KernelIdeal.Launch
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

theorem pt_lt (t : Fin cfg1.N) : t.val < 32 := lt_of_lt_of_eq (t.isLt : t.val < grid1.N) N_1

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = t.val ∧ win1_2.index t (1 : Fin 2) = 0 :=
  (by decide +kernel : ∀ t : Fin grid1.N, _)

theorem idx1_3 : ∀ t : Fin cfg1.N, win1_3.index t (0 : Fin 2) = t.val ∧ win1_3.index t (1 : Fin 2) = 0 :=
  (by decide +kernel : ∀ t : Fin grid1.N, _)

theorem idx1_4 : ∀ t : Fin cfg1.N, win1_4.index t (0 : Fin 2) = t.val ∧ win1_4.index t (1 : Fin 2) = 0 :=
  (by decide +kernel : ∀ t : Fin grid1.N, _)

theorem idx1_5 : ∀ t : Fin cfg1.N, win1_5.index t (0 : Fin 2) = t.val ∧ win1_5.index t (1 : Fin 2) = 0 :=
  (by decide +kernel : ∀ t : Fin grid1.N, _)

theorem idx1_6 : ∀ t : Fin cfg1.N, win1_6.index t (0 : Fin 2) = 0 ∧ win1_6.index t (1 : Fin 2) = 0 :=
  (by decide +kernel : ∀ t : Fin grid1.N, _)

theorem iblk1_0_apply (c : Dev nD) (t : Fin cfg1.N) (r : Fin 256) (d : Fin 512) :
    iblk1 V c 0 t (ix2 r d)
      = V c main_arg0 (ix2 (⟨256 * t.val + r.val, by have := pt_lt t; omega⟩ : Fin 8192) d) := by
  show V c main_arg0 (((cfg1.win 0).blk t).view.emb (ix2 r d)) = _
  refine congrArg (V c main_arg0) (funext fun a => Fin.ext ?_)
  obtain ⟨e0, e1⟩ := idx1_0 t
  match a with
  | ⟨0, _⟩ => show win1_0.index t (0 : Fin 2) * 256 + 1 * r.val = 256 * t.val + r.val; omega
  | ⟨1, _⟩ => show win1_0.index t (1 : Fin 2) * 512 + 1 * d.val = d.val; omega

theorem iblk1_1_apply (c : Dev nD) (t : Fin cfg1.N) (r : Fin 256) (d : Fin 512) :
    iblk1 V c 1 t (ix2 r d)
      = V c main_arg2 (ix2 (⟨256 * t.val + r.val, by have := pt_lt t; omega⟩ : Fin 8192) d) := by
  show V c main_arg2 (((cfg1.win 1).blk t).view.emb (ix2 r d)) = _
  refine congrArg (V c main_arg2) (funext fun a => Fin.ext ?_)
  obtain ⟨e0, e1⟩ := idx1_1 t
  match a with
  | ⟨0, _⟩ => show win1_1.index t (0 : Fin 2) * 256 + 1 * r.val = 256 * t.val + r.val; omega
  | ⟨1, _⟩ => show win1_1.index t (1 : Fin 2) * 512 + 1 * d.val = d.val; omega

theorem iblk1_2_apply (c : Dev nD) (t : Fin cfg1.N) (r : Fin 256) (d : Fin 512) :
    iblk1 V c 2 t (ix2 r d)
      = V c main_arg3 (ix2 (⟨256 * t.val + r.val, by have := pt_lt t; omega⟩ : Fin 8192) d) := by
  show V c main_arg3 (((cfg1.win 2).blk t).view.emb (ix2 r d)) = _
  refine congrArg (V c main_arg3) (funext fun a => Fin.ext ?_)
  obtain ⟨e0, e1⟩ := idx1_2 t
  match a with
  | ⟨0, _⟩ => show win1_2.index t (0 : Fin 2) * 256 + 1 * r.val = 256 * t.val + r.val; omega
  | ⟨1, _⟩ => show win1_2.index t (1 : Fin 2) * 512 + 1 * d.val = d.val; omega

theorem iblk1_3_apply (c : Dev nD) (t : Fin cfg1.N) (r : Fin 256) (d : Fin 3129) :
    iblk1 V c 3 t (ix2 r d)
      = V c main_arg4 (ix2 (⟨256 * t.val + r.val, by have := pt_lt t; omega⟩ : Fin 8192) d) := by
  show V c main_arg4 (((cfg1.win 3).blk t).view.emb (ix2 r d)) = _
  refine congrArg (V c main_arg4) (funext fun a => Fin.ext ?_)
  obtain ⟨e0, e1⟩ := idx1_3 t
  match a with
  | ⟨0, _⟩ => show win1_3.index t (0 : Fin 2) * 256 + 1 * r.val = 256 * t.val + r.val; omega
  | ⟨1, _⟩ => show win1_3.index t (1 : Fin 2) * 3129 + 1 * d.val = d.val; omega

theorem iblk1_4_apply (c : Dev nD) (t : Fin cfg1.N) (r : Fin 256) (d : Fin 3129) :
    iblk1 V c 4 t (ix2 r d)
      = V c main_arg5 (ix2 (⟨256 * t.val + r.val, by have := pt_lt t; omega⟩ : Fin 8192) d) := by
  show V c main_arg5 (((cfg1.win 4).blk t).view.emb (ix2 r d)) = _
  refine congrArg (V c main_arg5) (funext fun a => Fin.ext ?_)
  obtain ⟨e0, e1⟩ := idx1_4 t
  match a with
  | ⟨0, _⟩ => show win1_4.index t (0 : Fin 2) * 256 + 1 * r.val = 256 * t.val + r.val; omega
  | ⟨1, _⟩ => show win1_4.index t (1 : Fin 2) * 3129 + 1 * d.val = d.val; omega

theorem iblk1_5_apply (c : Dev nD) (t : Fin cfg1.N) (r : Fin 256) (d : Fin 1) :
    iblk1 V c 5 t (ix2 r d)
      = V c main_arg6 (ix2 (⟨256 * t.val + r.val, by have := pt_lt t; omega⟩ : Fin 8192) d) := by
  show V c main_arg6 (((cfg1.win 5).blk t).view.emb (ix2 r d)) = _
  refine congrArg (V c main_arg6) (funext fun a => Fin.ext ?_)
  obtain ⟨e0, e1⟩ := idx1_5 t
  match a with
  | ⟨0, _⟩ => show win1_5.index t (0 : Fin 2) * 256 + 1 * r.val = 256 * t.val + r.val; omega
  | ⟨1, _⟩ => show win1_5.index t (1 : Fin 2) * 1 + 1 * d.val = d.val; omega

theorem iblk1_6_apply (c : Dev nD) (t : Fin cfg1.N) (k : Fin 3129) (d : Fin 512) :
    iblk1 V c 6 t (ix2 k d) = V c main_v0 (ix2 k d) := by
  show V c main_v0 (((cfg1.win 6).blk t).view.emb (ix2 k d)) = _
  refine congrArg (V c main_v0) (funext fun a => Fin.ext ?_)
  obtain ⟨e0, e1⟩ := idx1_6 t
  match a with
  | ⟨0, _⟩ => show win1_6.index t (0 : Fin 2) * 3129 + 1 * k.val = k.val; omega
  | ⟨1, _⟩ => show win1_6.index t (1 : Fin 2) * 512 + 1 * d.val = d.val; omega

end Cert.KernelIdeal.KVal

end
-- ==== Proof.KArr1.lean ====
import proofs.«402368_j74302934221059_3_alg».proof.Proof.KI.R1Val
import proofs.«402368_j74302934221059_3_alg».proof.Proof.KRowsA
import proofs.«402368_j74302934221059_3_alg».proof.Proof.KRowsB
import proofs.«402368_j74302934221059_3_alg».proof.Proof.KRowsC
import proofs.«402368_j74302934221059_3_alg».proof.Proof.KAcc
import proofs.«402368_j74302934221059_3_alg».proof.Proof.KBlocks
import proofs.«402368_j74302934221059_3_alg».proof.Proof.Spec
import Idealize.ShloMosaic.Lib.Pipeline.Value

set_option maxRecDepth 16384

noncomputable section

namespace Cert.KernelIdeal.KVal

open Idealize.ShloMosaic Idealize.ShloMosaic.TcCoe Idealize.ShloMosaic.ValueIdx Cert.KernelIdeal Cert.KernelIdeal.Gen Cert.KernelIdeal.Fr Cert.Spec

variable (V : (c : Dev nD) → (b : Ref sig .tc) → Buf (Elt Ideal) ((c : Thread nD τ).loc b))

abbrev arrP (c : Dev nD) : S8192x512.Idx → EReal := V c main_arg0
abbrev arrV (c : Dev nD) : S8192x512.Idx → EReal := V c main_arg2
abbrev arrW (c : Dev nD) : S8192x512.Idx → EReal := V c main_arg3
abbrev arrQ (c : Dev nD) : S8192x3129.Idx → EReal := V c main_arg4
abbrev arrR (c : Dev nD) : S8192x3129.Idx → EReal := V c main_arg5
abbrev arrC (c : Dev nD) : S8192x1.Idx → BitVec 32 := V c main_arg6
abbrev arrN (c : Dev nD) : S3129x512.Idx → EReal := V c main_v0

abbrev blk0 (c : Dev nD) (t : Fin cfg1.N) : Vec Ideal S256x512 .f32 := iblk1 V c 0 t
abbrev blk1 (c : Dev nD) (t : Fin cfg1.N) : Vec Ideal S256x512 .f32 := iblk1 V c 1 t
abbrev blk2 (c : Dev nD) (t : Fin cfg1.N) : Vec Ideal S256x512 .f32 := iblk1 V c 2 t
abbrev blk3 (c : Dev nD) (t : Fin cfg1.N) : Vec Ideal S256x3129 .f32 := iblk1 V c 3 t
abbrev blk4 (c : Dev nD) (t : Fin cfg1.N) : Vec Ideal S256x3129 .f32 := iblk1 V c 4 t
abbrev blk5 (c : Dev nD) (t : Fin cfg1.N) : Vec Ideal S256x1 .i32 := iblk1 V c 5 t
abbrev blk6 (c : Dev nD) (t : Fin cfg1.N) : Vec Ideal S3129x512 .bf16 := iblk1 V c 6 t

abbrev rowIx (t : Fin cfg1.N) (r : Fin 256) : Fin 8192 := ⟨256 * t.val + r.val, by have := pt_lt t; omega⟩

def rowLoss (c : Dev nD) (l : Fin 128) (b : Fin 8192) : EReal :=
  if l.val = 0 then
    lossK (fun m : Fin 3129 => ∑ d : Fin 512, unit (row (arrP V c) b) d * arrN V c (ix2 m d)) (arrC V c (ix2 b 0))
  else if l.val = 1 then objK (row (arrV V c) b) (row (arrW V c) b)
  else if l.val = 2 then lossK (row (arrR V c) b) (arrC V c (ix2 b 0))
  else if l.val = 3 then lossK (row (arrQ V c) b) (arrC V c (ix2 b 0))
  else 0

theorem rowLoss_0 (c : Dev nD) (l : Fin 128) (b : Fin 8192) (h : l.val = 0) : rowLoss V c l b
    = lossK (fun m : Fin 3129 => ∑ d : Fin 512, unit (row (arrP V c) b) d * arrN V c (ix2 m d)) (arrC V c (ix2 b 0)) := by
  unfold rowLoss; rw [if_pos h]
theorem rowLoss_1 (c : Dev nD) (l : Fin 128) (b : Fin 8192) (h : l.val = 1) : rowLoss V c l b
    = objK (row (arrV V c) b) (row (arrW V c) b) := by
  unfold rowLoss; rw [if_neg (by omega), if_pos h]
theorem rowLoss_2 (c : Dev nD) (l : Fin 128) (b : Fin 8192) (h : l.val = 2) : rowLoss V c l b
    = lossK (row (arrR V c) b) (arrC V c (ix2 b 0)) := by
  unfold rowLoss; rw [if_neg (by omega), if_neg (by omega), if_pos h]
theorem rowLoss_3 (c : Dev nD) (l : Fin 128) (b : Fin 8192) (h : l.val = 3) : rowLoss V c l b
    = lossK (row (arrQ V c) b) (arrC V c (ix2 b 0)) := by
  unfold rowLoss; rw [if_neg (by omega), if_neg (by omega), if_neg (by omega), if_pos h]
theorem rowLoss_else (c : Dev nD) (l : Fin 128) (b : Fin 8192) (h0 : ¬l.val = 0) (h1 : ¬l.val = 1) (h2 : ¬l.val = 2)
    (h3 : ¬l.val = 3) : rowLoss V c l b = 0 := by
  unfold rowLoss; rw [if_neg h0, if_neg h1, if_neg h2, if_neg h3]

theorem rowP (c : Dev nD) (t : Fin cfg1.N) (r : Fin 256) : row (blk0 V c t) r = row (arrP V c) (rowIx t r) :=
  funext fun d => iblk1_0_apply V c t r d
theorem rowV (c : Dev nD) (t : Fin cfg1.N) (r : Fin 256) : row (blk1 V c t) r = row (arrV V c) (rowIx t r) :=
  funext fun d => iblk1_1_apply V c t r d
theorem rowW (c : Dev nD) (t : Fin cfg1.N) (r : Fin 256) : row (blk2 V c t) r = row (arrW V c) (rowIx t r) :=
  funext fun d => iblk1_2_apply V c t r d
theorem rowQ (c : Dev nD) (t : Fin cfg1.N) (r : Fin 256) : row (blk3 V c t) r = row (arrQ V c) (rowIx t r) :=
  funext fun d => iblk1_3_apply V c t r d
theorem rowR (c : Dev nD) (t : Fin cfg1.N) (r : Fin 256) : row (blk4 V c t) r = row (arrR V c) (rowIx t r) :=
  funext fun d => iblk1_4_apply V c t r d
theorem wordC (c : Dev nD) (t : Fin cfg1.N) (r : Fin 256) : blk5 V c t (ix2 r 0) = arrC V c (ix2 (rowIx t r) 0) :=
  iblk1_5_apply V c t r 0

theorem mask_if (P : Prop) [Decidable P] (y : EReal) :
    (if (if P then (1#1 : BitVec 1) else 0#1) = 1#1 then y else 0) = if P then y else 0 := by
  by_cases h : P
  · rw [if_pos h, if_pos h, if_pos rfl]
  · rw [if_neg h, if_neg h, if_neg (by decide)]

theorem lane0 (c : Dev nD) (t : Fin cfg1.N) (r : Fin 256) :
    k1_pay4 (F := Ideal) (blk5 V c t) (blk0 V c t) (blk6 V c t) (ix2 r 0)
      = lossK (fun m : Fin 3129 => ∑ d : Fin 512, unit (row (arrP V c) (rowIx t r)) d * arrN V c (ix2 m d))
          (arrC V c (ix2 (rowIx t r) 0)) := by
  refine (KRows.pay4_apply (blk5 V c t) (blk0 V c t) (blk6 V c t) r).trans ?_
  refine congrArg₂ lossK (funext fun m => Finset.sum_congr rfl fun d _ => ?_) (wordC V c t r)
  exact congrArg₂ (· * ·) (congrFun (congrArg unit (rowP V c t r)) d) (iblk1_6_apply V c t m d)

theorem lane1 (c : Dev nD) (t : Fin cfg1.N) (r : Fin 256) :
    k1_pay6 (F := Ideal) (blk1 V c t) (k1_pay5 (blk1 V c t)) (blk2 V c t) (ix2 r 0)
      = objK (row (arrV V c) (rowIx t r)) (row (arrW V c) (rowIx t r)) :=
  (KRows.pay6_apply (blk1 V c t) (blk2 V c t) r).trans (congrArg₂ objK (rowV V c t r) (rowW V c t r))

theorem lane2 (c : Dev nD) (t : Fin cfg1.N) (r : Fin 256) :
    k1_pay8 (F := Ideal) (blk4 V c t) (ix2 r 0)
        - ∑ m : Fin 3129, (if k1_pay3 (F := Ideal) (blk5 V c t) (ix2 r m) = 1#1 then blk4 V c t (ix2 r m) else 0)
      = lossK (row (arrR V c) (rowIx t r)) (arrC V c (ix2 (rowIx t r) 0)) := by
  show _ = lseK (row (arrR V c) (rowIx t r)) - pickK (row (arrR V c) (rowIx t r)) (arrC V c (ix2 (rowIx t r) 0))
  refine congrArg₂ (· - ·) ((KRows.pay8_apply (blk4 V c t) r).trans (congrArg lseK (rowR V c t r))) ?_
  unfold pickK
  refine Finset.sum_congr rfl fun m _ => ?_
  refine (congrArg (fun b : BitVec 1 => if b = 1#1 then blk4 V c t (ix2 r m) else (0 : EReal))
    (KRows.pay3_apply (blk5 V c t) r m)).trans ?_
  refine (mask_if _ _).trans ?_
  have e5 := wordC V c t r
  exact if_congr (by rw [e5]) (iblk1_4_apply V c t r m) rfl

theorem lane3 (c : Dev nD) (t : Fin cfg1.N) (r : Fin 256) :
    k1_pay7 (F := Ideal) (k1_pay3 (F := Ideal) (blk5 V c t)) (blk3 V c t) (ix2 r 0)
      = lossK (row (arrQ V c) (rowIx t r)) (arrC V c (ix2 (rowIx t r) 0)) :=
  (KRows.pay7_apply (blk5 V c t) (blk3 V c t) r).trans (congrArg₂ lossK (rowQ V c t r) (wordC V c t r))

theorem upd_apply (c : Dev nD) (t : Fin cfg1.N) (prev : Vec Ideal S8x128 .f32) (a : Fin 8) (l : Fin 128) :
    k1_pay1 (F := Ideal) (k1_pay3 (F := Ideal) (blk5 V c t)) (k1_pay4 (blk5 V c t) (blk0 V c t) (blk6 V c t))
        (k1_pay6 (blk1 V c t) (k1_pay5 (blk1 V c t)) (blk2 V c t))
        (k1_pay7 (k1_pay3 (F := Ideal) (blk5 V c t)) (blk3 V c t)) (blk4 V c t) (k1_pay8 (blk4 V c t)) prev (ix2 a l)
      = prev (ix2 a l) + (if a.val = 0 then ∑ r : Fin 256, rowLoss V c l (rowIx t r) else 0) := by
  refine (KRows.pay1_apply (k1_pay3 (F := Ideal) (blk5 V c t)) (k1_pay4 (blk5 V c t) (blk0 V c t) (blk6 V c t))
    (k1_pay6 (blk1 V c t) (k1_pay5 (blk1 V c t)) (blk2 V c t))
    (k1_pay7 (k1_pay3 (F := Ideal) (blk5 V c t)) (blk3 V c t)) (blk4 V c t) (k1_pay8 (blk4 V c t)) prev a l).trans ?_
  refine congrArg (prev (ix2 a l) + ·) ?_
  by_cases ha : a.val = 0
  · rw [if_pos ha, if_pos ha]
    by_cases h0 : l.val = 0
    · rw [if_pos h0]
      exact Finset.sum_congr rfl fun r _ => (lane0 V c t r).trans (rowLoss_0 V c l _ h0).symm
    rw [if_neg h0]
    by_cases h1 : l.val = 1
    · rw [if_pos h1]
      exact Finset.sum_congr rfl fun r _ => (lane1 V c t r).trans (rowLoss_1 V c l _ h1).symm
    rw [if_neg h1]
    by_cases h2 : l.val = 2
    · rw [if_pos h2]
      exact Finset.sum_congr rfl fun r _ => (lane2 V c t r).trans (rowLoss_2 V c l _ h2).symm
    rw [if_neg h2]
    by_cases h3 : l.val = 3
    · rw [if_pos h3]
      exact Finset.sum_congr rfl fun r _ => (lane3 V c t r).trans (rowLoss_3 V c l _ h3).symm
    rw [if_neg h3]
    exact (Finset.sum_eq_zero fun r _ => rowLoss_else V c l _ h0 h1 h2 h3).symm
  · rw [if_neg ha, if_neg ha]

def tileAt (c : Dev nD) (n : ℕ) : S8x128.Idx → EReal :=
  if h : n < cfg1.N then outsAt1 V c n h else fun _ => 0

def ptSum (c : Dev nD) (l : Fin 128) (n : ℕ) : EReal :=
  if h : n < 32 then ∑ r : Fin 256, rowLoss V c l ⟨256 * n + r.val, by omega⟩ else 0

theorem tile_step (c : Dev nD) (t : Fin cfg1.N) (a : Fin 8) (l : Fin 128) :
    tileAt V c t.val (ix2 a l)
      = (if t.val % 16 = 0 then 0 else tileAt V c (t.val - 1) (ix2 a l))
        + (if a.val = 0 then ptSum V c l t.val else 0) := by
  have hN : t.val < 32 := pt_lt t
  have e1 : tileAt V c t.val = outsAt1 V c t.val t.isLt := dif_pos t.isLt
  have ep : ptSum V c l t.val = ∑ r : Fin 256, rowLoss V c l (rowIx t r) := dif_pos hN
  rw [e1, ep]
  by_cases h0 : t.val % 16 = 0
  · rw [if_pos h0, outsAt1_A V c t h0]
    refine (congrFun (out1_A_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0)
      (blk0 V c t) (blk1 V c t) (blk2 V c t) (blk3 V c t) (blk4 V c t) (blk5 V c t) (blk6 V c t)) (ix2 a l)).trans ?_
    refine (upd_apply V c t (k1_pay2 (F := Ideal)) a l).trans ?_
    rw [KRows.pay2_apply]
  · have e2 : tileAt V c (t.val - 1) = outsAt1 V c (t.val - 1) (Nat.lt_of_le_of_lt (Nat.sub_le _ _) t.isLt) :=
      dif_pos _
    rw [if_neg h0, e2, outsAt1_B V c t h0]
    refine (congrFun (out1_B_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h))
      (blk0 V c t) (blk1 V c t) (blk2 V c t) (blk3 V c t) (blk4 V c t) (blk5 V c t) (blk6 V c t) (outsAt1 V c (t.val - 1) (Nat.lt_of_le_of_lt (Nat.sub_le _ _) t.isLt))) (ix2 a l)).trans ?_
    exact upd_apply V c t _ a l

-- After a core's last point, row 0 of its tile holds the sum of the core's 16 point sums.
theorem tile_closed (c : Dev nD) (q : Fin 2) (l : Fin 128) :
    tileAt V c (16 * q.val + 15) (ix2 0 l)
      = ∑ i : Fin 16, ∑ r : Fin 256, rowLoss V c l ⟨256 * (16 * q.val + i.val) + r.val, by omega⟩ := by
  have hA : ∀ t, t % 16 = 0 → tileAt V c t (ix2 0 l) = 0 + ptSum V c l t := by
    intro t ht
    by_cases hlt : t < 32
    · have h := tile_step V c ⟨t, lt_of_lt_of_eq hlt N_1.symm⟩ 0 l
      rw [if_pos ht, if_pos (show (0 : Fin 8).val = 0 from rfl)] at h
      exact h
    · have e1 : tileAt V c t = fun _ => 0 := dif_neg (fun h => hlt (lt_of_lt_of_eq h N_1))
      have e2 : ptSum V c l t = 0 := dif_neg hlt
      rw [e1, e2, zero_add]
  have hB : ∀ t, t % 16 ≠ 0 → tileAt V c t (ix2 0 l) = tileAt V c (t - 1) (ix2 0 l) + ptSum V c l t := by
    intro t ht
    by_cases hlt : t < 32
    · have h := tile_step V c ⟨t, lt_of_lt_of_eq hlt N_1.symm⟩ 0 l
      rw [if_neg ht, if_pos (show (0 : Fin 8).val = 0 from rfl)] at h
      exact h
    · have e1 : tileAt V c t = fun _ => 0 := dif_neg (fun h => hlt (lt_of_lt_of_eq h N_1))
      have e0 : tileAt V c (t - 1) = fun _ => 0 := dif_neg (fun h => by have := lt_of_lt_of_eq h N_1; omega)
      have e2 : ptSum V c l t = 0 := dif_neg hlt
      rw [e1, e0, e2, zero_add]
  refine (acc_closed (ptSum V c l) (fun t => tileAt V c t (ix2 0 l)) hA hB q.val).trans ?_
  exact Finset.sum_congr rfl fun i _ => dif_pos (by omega)

def arr1 (c : Dev nD) : S16x128.Idx → EReal := fun j =>
  tileAt V c (16 * ((j 0).val / 8) + 15) (ix2 (⟨(j 0).val % 8, Nat.mod_lt _ (by decide)⟩ : Fin 8) (j 1))

theorem idx1_7 : ∀ t : Fin cfg1.N, win1_7.index t (0 : Fin 2) = t.val / 16 ∧ win1_7.index t (1 : Fin 2) = 0 :=
  (by decide +kernel : ∀ t : Fin grid1.N, _)

theorem flushed1_eq (c : Dev nD) (t : Fin cfg1.N) (hf : (cfg1.win 7).flush t = true) :
    (dat1 (F := Ideal) V c).flushed 7 t = ((cfg1.win 7).blk t).view.read (Elt Ideal) (arr1 V c) := by
  have h15 : t.val % 16 = 15 := (flush1_7 t).mp hf
  have hN : t.val < 32 := pt_lt t
  obtain ⟨e0, e1⟩ := idx1_7 t
  show (cfg1.win 7).cut (grid1.coords t) ((dat1 (F := Ideal) V c).after 7 t) = _
  rw [after1_7]
  have e : outsAt1 V c t.val t.isLt = tileAt V c t.val := (dif_pos t.isLt).symm
  rw [e]
  funext j
  have hj0 : (j 0).val < 8 := (j 0).isLt
  have hj1 : (j 1).val < 128 := (j 1).isLt
  have k0 : ((((cfg1.win 7).blk t).view.emb j) 0).val = win1_7.index t (0 : Fin 2) * 8 + 1 * (j 0).val := rfl
  have k1 : ((((cfg1.win 7).blk t).view.emb j) 1).val = win1_7.index t (1 : Fin 2) * 128 + 1 * (j 1).val := rfl
  have hn : t.val = 16 * (((((cfg1.win 7).blk t).view.emb j) 0).val / 8) + 15 := by omega
  have hx : ((cfg1.win 7).xinj (grid1.coords t) j : S8x128.Idx)
      = ix2 (⟨((((cfg1.win 7).blk t).view.emb j) 0).val % 8, Nat.mod_lt _ (by decide)⟩ : Fin 8)
          ((((cfg1.win 7).blk t).view.emb j) 1) := by
    funext a; apply Fin.ext
    match a with
    | ⟨0, _⟩ => show (j 0).val = ((((cfg1.win 7).blk t).view.emb j) 0).val % 8; omega
    | ⟨1, _⟩ => show (j 1).val = ((((cfg1.win 7).blk t).view.emb j) 1).val; omega
  exact congrArg₂ (tileAt V c) hn hx

theorem mem_blk1 (t : Fin cfg1.N) (i : S16x128.Idx) :
    i ∈ ((cfg1.win 7).blk t).view.set ↔ ∀ a : Fin 2, win1_7.index t a * S8x128.size a ≤ (i a).val ∧ (i a).val < win1_7.index t a * S8x128.size a + S8x128.size a := by
  show i ∈ ((View.whole main_v1).slice (win1_7.rect t)).set ↔ _
  rw [View.set_slice_whole, Rect.mem_set_unit]
  exact Iff.rfl

theorem cover1 (i : S16x128.Idx) :
    ∃ t : Fin cfg1.N, (cfg1.win 7).flush t = true ∧ i ∈ ((cfg1.win 7).blk t).view.set := by
  have h0 : (i 0).val < 16 := (i 0).isLt
  have h1 : (i 1).val < 128 := (i 1).isLt
  have hlt : 16 * ((i 0).val / 8) + 15 < cfg1.N := lt_of_lt_of_eq (by omega) N_1.symm
  have tv : (⟨16 * ((i 0).val / 8) + 15, hlt⟩ : Fin cfg1.N).val = 16 * ((i 0).val / 8) + 15 := rfl
  refine ⟨⟨16 * ((i 0).val / 8) + 15, hlt⟩, (flush1_7 _).mpr (by rw [tv]; omega), ?_⟩
  rw [mem_blk1]
  obtain ⟨e0, e1⟩ := idx1_7 ⟨16 * ((i 0).val / 8) + 15, hlt⟩
  rw [tv] at e0
  intro a
  match a with
  | ⟨0, _⟩ =>
    show win1_7.index ⟨16 * ((i 0).val / 8) + 15, hlt⟩ (0 : Fin 2) * 8 ≤ (i 0).val
      ∧ (i 0).val < win1_7.index ⟨16 * ((i 0).val / 8) + 15, hlt⟩ (0 : Fin 2) * 8 + 8
    omega
  | ⟨1, _⟩ =>
    show win1_7.index ⟨16 * ((i 0).val / 8) + 15, hlt⟩ (1 : Fin 2) * 128 ≤ (i 1).val
      ∧ (i 1).val < win1_7.index ⟨16 * ((i 0).val / 8) + 15, hlt⟩ (1 : Fin 2) * 128 + 128
    omega

theorem arr1_eq (c : Dev nD) : (dat1 (F := Ideal) V c).arrAt 7 cfg1.N = arr1 V c :=
  (dat1 (F := Ideal) V c).arrAt_eq_of_cover 7 (arr1 V c) (fun t hf => flushed1_eq V c t hf) cover1

theorem arr1_apply (c : Dev nD) (q : Fin 2) (l : Fin 128) :
    ((dat1 (F := Ideal) V c).arrAt 7 cfg1.N : S16x128.Idx → EReal) (ix2 (⟨8 * q.val, by omega⟩ : Fin 16) l)
      = ∑ i : Fin 16, ∑ r : Fin 256, rowLoss V c l ⟨256 * (16 * q.val + i.val) + r.val, by omega⟩ := by
  rw [arr1_eq]
  refine Eq.trans ?_ (tile_closed V c q l)
  refine congrArg₂ (tileAt V c) (by show 16 * ((8 * q.val) / 8) + 15 = 16 * q.val + 15; omega) ?_
  funext a; apply Fin.ext
  match a with
  | ⟨0, _⟩ => show (8 * q.val) % 8 = 0; omega
  | ⟨1, _⟩ => rfl

end Cert.KernelIdeal.KVal

end
-- ==== Proof.LibNary3.lean ====
import Idealize.ShloMosaic.Lib.StableHlo.Run
import Idealize.ShloMosaic.Lib.Pipeline.Value
import Idealize.ShloMosaic.Lib.ValueIdx

noncomputable section

namespace Idealize.ShloMosaic.StableHlo

variable {τ : Topo} {sig : RefSig} {Val : EltTy → Type}
variable {x a b y : Ref sig .tc}

-- Under the binder, `![x, a, b] k` is no literal reference; read at its three places, each operand stands at its own.
theorem nary3_result_curried
    (g : x.ty.Contents Val → a.ty.Contents Val → b.ty.Contents Val → y.ty.Contents Val) (hxs hy) (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) := by
  rw [nary_result]; rfl

end Idealize.ShloMosaic.StableHlo

namespace Idealize.ShloMosaic

open ValueIdx

-- A concatenate of three one-entry pieces, read at an index: the piece the index names.
theorem concat3_apply {α : Type} (x y z : (⟨1, ![1]⟩ : Shape).Idx → α)
    (h : Shape.Concatenates (([⟨⟨1, ![1]⟩, x⟩, ⟨⟨1, ![1]⟩, y⟩, ⟨⟨1, ![1]⟩, z⟩] : List ((s : Shape) × (s.Idx → α))).map (·.1))
      (⟨1, ![3]⟩ : Shape) 0) (j : (⟨1, ![3]⟩ : Shape).Idx) :
    concatenate (⟨1, ![3]⟩ : Shape) 0 [⟨⟨1, ![1]⟩, x⟩, ⟨⟨1, ![1]⟩, y⟩, ⟨⟨1, ![1]⟩, z⟩] h j
      = if (j 0).val = 0 then x (ix1 0) else if (j 0).val = 1 then y (ix1 0) else z (ix1 0) := by
  have hj : (j 0).val < 3 := (j 0).isLt
  have hi : ∀ b : Fin (⟨1, ![1]⟩ : Shape).rank, b.cast (rfl : (⟨1, ![1]⟩ : Shape).rank = (⟨1, ![3]⟩ : Shape).rank) ≠ (0 : Fin 1) →
      ((ix1 (0 : Fin 1) : (⟨1, ![1]⟩ : Shape).Idx) b).val = (j (b.cast rfl)).val := fun b hb => absurd (Subsingleton.elim _ _) hb
  by_cases h0 : (j 0).val = 0
  · rw [if_pos h0]
    exact concatenate_apply_piece 0 _ h j 0 (by show 0 < 3; omega) _ x rfl rfl 0 rfl (ix1 0) hi (by show 0 + 0 = (j 0).val; omega)
  · rw [if_neg h0]
    by_cases h1 : (j 0).val = 1
    · rw [if_pos h1]
      exact concatenate_apply_piece 0 _ h j 1 (by show 1 < 3; omega) _ y rfl rfl 1 rfl (ix1 0) hi (by show 1 + 0 = (j 0).val; omega)
    · rw [if_neg h1]
      exact concatenate_apply_piece 0 _ h j 2 (by show 2 < 3; omega) _ z rfl rfl 2 rfl (ix1 0) hi (by show 2 + 0 = (j 0).val; omega)

end Idealize.ShloMosaic

end
-- ==== Proof.KTail.lean ====
import proofs.«402368_j74302934221059_3_alg».proof.Proof.Gen.KernelIdeal.Launch
import proofs.«402368_j74302934221059_3_alg».proof.Proof.Spec
import proofs.«402368_j74302934221059_3_alg».proof.Proof.LibNary3
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.KVal

open Idealize.ShloMosaic Idealize.ShloMosaic.ValueIdx Cert.KernelIdeal Cert.KernelIdeal.Gen Cert.Spec

theorem rowLanes_apply {α : Type} (y : S16x128.Idx → α) (o : Nat) (r : Fin 16) (ho : r.val = o)
    (hs : S16x128.Slices ![o, 0] S1x128) (hc : S1x128.ShapeCasts S128) (l : Fin 128) :
    shapeCast S128 (extractStridedSlice S1x128 ![o, 0] y hs) hc (ix1 l) = y (ix2 r l) := by
  refine (shapeCast_apply _ hc (ix1 l) (ix2 (0 : Fin 1) l) ?_).trans ?_
  · rw [Shape.rowMajor_val_two, Shape.rowMajor_val_one]
    show 0 * 128 + l.val = l.val
    omega
  · refine extractStridedSlice_apply _ y hs (ix2 (0 : Fin 1) l) (ix2 r l) ?_
    intro a
    match a with
    | ⟨0, _⟩ => show r.val = o + 0; omega
    | ⟨1, _⟩ => show l.val = 0 + l.val; omega

theorem lane_apply {α : Type} (v : S128.Idx → α) (o : Nat) (l : Fin 128) (ho : l.val = o)
    (hs : S128.Slices ![o] S1) (hc : S1.ShapeCasts S_) (i : S_.Idx) :
    shapeCast S_ (extractStridedSlice S1 ![o] v hs) hc i = v (ix1 l) := by
  refine (shapeCast_apply _ hc i (ix1 (0 : Fin 1)) ?_).trans ?_
  · rw [Shape.rowMajor_val_one]
    have h := (S_.rowMajor i).isLt
    have h1 : S_.numel = 1 := rfl
    show (0 : Nat) = (S_.rowMajor i).val
    omega
  · refine extractStridedSlice_apply _ v hs (ix1 (0 : Fin 1)) (ix1 l) ?_
    intro a
    match a with
    | ⟨0, _⟩ => show l.val = o + 0; omega

theorem bcast1_apply {α : Type} (x : S_.Idx → α) (h : S_.BroadcastsInDim S1 (![] : Fin 0 → Fin S1.rank)) (j : S1.Idx) :
    broadcastInDim S1 ![] h x j = x ix0 :=
  broadcastInDim_apply ![] h x j ix0 (fun a => a.elim0)

theorem mean_apply (y : S16x128.Idx → EReal) (o : Nat) (l : Fin 128) (ho : l.val = o) (hs : S128.Slices ![o] S1) (i : S_.Idx) :
    Host.divf (F := Ideal) (φ := .f32)
        (shapeCast S_ (extractStridedSlice S1 ![o]
          (addf (F := Ideal) (φ := .f32)
            (shapeCast S128 (extractStridedSlice S1x128 ![0, 0] y slices_S16x128_S1x128_0_0) shapeCasts_S1x128_S128)
            (shapeCast S128 (extractStridedSlice S1x128 ![8, 0] y slices_S16x128_S1x128_8_0) shapeCasts_S1x128_S128)) hs)
          shapeCasts_S1_S_)
        (constant (F := Ideal) S_ .f32 0x46000000#32) i
      = Ideal.div (y (ix2 (0 : Fin 16) l) + y (ix2 (8 : Fin 16) l)) e8192 := by
  show Ideal.div (shapeCast S_ (extractStridedSlice (s := S128) S1 ![o] _ hs) shapeCasts_S1_S_ i) e8192 = _
  refine congrArg (fun t => Ideal.div t e8192) ?_
  refine (lane_apply _ o l ho hs shapeCasts_S1_S_ i).trans ?_
  exact congrArg₂ (· + ·)
    (rowLanes_apply y 0 0 rfl slices_S16x128_S1x128_0_0 shapeCasts_S1x128_S128 l)
    (rowLanes_apply y 8 8 rfl slices_S16x128_S1x128_8_0 shapeCasts_S1x128_S128 l)

theorem combine_apply (nce obj cer ceq : EReal) (i : Fin 3) :
    combine nce obj cer ceq i
      = if i.val = 0 then Ideal.div ((cer + obj) + nce) e3 + e1 * ceq
        else if i.val = 1 then Ideal.div ((cer + obj) + nce) e3 else ceq := rfl

abbrev accOf (X : Valuation τ sig (Elt Ideal)) : S16x128.Idx → EReal := X (Proc.devRef .tc main_v1)

-- The closing operations add the two cores' partial sums, divide by 8192 and combine the four means.
set_option maxHeartbeats 1000000 in

theorem tail_apply (X : Valuation τ sig (Elt Ideal)) :
    (StableHlo.after (hostOps2 (F := Ideal)) X (Proc.devRef .tc main_v27) : S3.Idx → EReal)
      = fun j => combine
          (Ideal.div (accOf X (ix2 (0 : Fin 16) (0 : Fin 128))
            + accOf X (ix2 (8 : Fin 16) (0 : Fin 128))) e8192)
          (Ideal.div (accOf X (ix2 (0 : Fin 16) (1 : Fin 128))
            + accOf X (ix2 (8 : Fin 16) (1 : Fin 128))) e8192)
          (Ideal.div (accOf X (ix2 (0 : Fin 16) (2 : Fin 128))
            + accOf X (ix2 (8 : Fin 16) (2 : Fin 128))) e8192)
          (Ideal.div (accOf X (ix2 (0 : Fin 16) (3 : Fin 128))
            + accOf X (ix2 (8 : Fin 16) (3 : Fin 128))) e8192) (j 0) := by
  show StableHlo.after hostOps2 X (Proc.devRef .tc main_v27) = _
  simp only [StableHlo.after_cons, StableHlo.after_nil]
  rw [StableHlo.nary3_result_curried (x := main_v24) (a := main_v25) (b := main_v26) (y := main_v27)
        (fun p q r => concatenate S3 0 [⟨S1, p⟩, ⟨S1, q⟩, ⟨S1, r⟩] concatenates_S1_S1_S1_S3_d0)]
  funext j
  refine (concat3_apply _ _ _ concatenates_S1_S1_S1_S3_d0 j).trans ?_
  after_results_simp
  refine Eq.trans ?_ (combine_apply _ _ _ _ (j 0)).symm
  refine if_congr Iff.rfl ?_ (if_congr Iff.rfl ?_ ?_)
  · refine (bcast1_apply _ _ _).trans ?_
    exact congrArg₂ (fun s t : EReal => s + t)
      (congrArg (fun t => Ideal.div t e3)
        (congrArg₂ (fun s t : EReal => s + t)
          (congrArg₂ (fun s t : EReal => s + t) (mean_apply (accOf X) 2 2 rfl _ ix0) (mean_apply (accOf X) 1 1 rfl _ ix0))
          (mean_apply (accOf X) 0 0 rfl _ ix0)))
      (congrArg (fun t => e1 * t) (mean_apply (accOf X) 3 3 rfl _ ix0))
  · refine (bcast1_apply _ _ _).trans ?_
    exact congrArg (fun t => Ideal.div t e3)
      (congrArg₂ (fun s t : EReal => s + t)
        (congrArg₂ (fun s t : EReal => s + t) (mean_apply (accOf X) 2 2 rfl _ ix0) (mean_apply (accOf X) 1 1 rfl _ ix0))
        (mean_apply (accOf X) 0 0 rfl _ ix0))
  · refine (bcast1_apply _ _ _).trans ?_
    exact mean_apply (accOf X) 3 3 rfl _ ix0

end Cert.KernelIdeal.KVal

end
-- ==== Proof.KOut.lean ====
import proofs.«402368_j74302934221059_3_alg».proof.Proof.KI.Run
import proofs.«402368_j74302934221059_3_alg».proof.Proof.KArr0
import proofs.«402368_j74302934221059_3_alg».proof.Proof.KArr1
import proofs.«402368_j74302934221059_3_alg».proof.Proof.KTail
import proofs.«402368_j74302934221059_3_alg».proof.Proof.KAcc
import proofs.«402368_j74302934221059_3_alg».proof.Proof.Spec

set_option maxRecDepth 16384

noncomputable section

namespace Cert.KernelIdeal.KVal

open Idealize.ShloMosaic Idealize.ShloMosaic.TcCoe Idealize.ShloMosaic.ValueIdx Cert.KernelIdeal Cert.KernelIdeal.Gen Cert.KernelIdeal.Fr Cert.Spec

theorem out_of_rows (P : SBD.Idx → EReal) (A : SMD.Idx → EReal) (V W : SBD.Idx → EReal) (Q R : SBM.Idx → EReal)
    (cw : Fin 8192 → BitVec 32) (y : S16x128.Idx → EReal) (rl : Fin 128 → Fin 8192 → EReal)
    (hy : ∀ (cc : Fin 2) (l : Fin 128), y (ix2 ⟨8 * cc.val, by omega⟩ l)
      = ∑ i : Fin 16, ∑ r : Fin 256, rl l ⟨256 * (16 * cc.val + i.val) + r.val, by omega⟩)
    (h0 : ∀ b, rl 0 b = lossK (cosRow A (row P b)) (cw b))
    (h1 : ∀ b, rl 1 b = objK (row V b) (row W b))
    (h2 : ∀ b, rl 2 b = lossK (row R b) (cw b))
    (h3 : ∀ b, rl 3 b = lossK (row Q b) (cw b)) :
    (fun j : S3.Idx => combine
        (Ideal.div (y (ix2 0 0) + y (ix2 8 0)) e8192) (Ideal.div (y (ix2 0 1) + y (ix2 8 1)) e8192)
        (Ideal.div (y (ix2 0 2) + y (ix2 8 2)) e8192) (Ideal.div (y (ix2 0 3) + y (ix2 8 3)) e8192) (j 0))
      = outK P A V W Q R cw := by
  have tot : ∀ l : Fin 128, y (ix2 0 l) + y (ix2 8 l) = ∑ b : Fin 8192, rl l b := fun l =>
    (congrArg₂ (· + ·) (hy 0 l) (hy 1 l)).trans (sum_blocks (rl l))
  unfold outK
  rw [tot 0, tot 1, tot 2, tot 3]
  rw [Finset.sum_congr rfl fun b _ => h0 b, Finset.sum_congr rfl fun b _ => h1 b,
    Finset.sum_congr rfl fun b _ => h2 b, Finset.sum_congr rfl fun b _ => h3 b]

section Arrays
variable (m : (ℓ : Loc nD τ sig) → Buf (Elt Ideal) ℓ) (ρ : Dev nD → PrngReg) (c : Dev nD)

theorem V1_of_ne (b : Ref sig .tc) (hb : ∀ w, Pipeline.arrRef spec0 w ≠ b) :
    V1 (F := Ideal) m ρ c b = m ((c : Thread nD τ).loc b) :=
  (W1_of_ne m ρ c b hb).trans rfl

theorem arrP_launch : arrP (V1 (F := Ideal) m ρ) c = m ((c : Thread nD τ).loc main_arg0) := V1_of_ne m ρ c main_arg0 (by decide)
theorem arrV_launch : arrV (V1 (F := Ideal) m ρ) c = m ((c : Thread nD τ).loc main_arg2) := V1_of_ne m ρ c main_arg2 (by decide)
theorem arrW_launch : arrW (V1 (F := Ideal) m ρ) c = m ((c : Thread nD τ).loc main_arg3) := V1_of_ne m ρ c main_arg3 (by decide)
theorem arrQ_launch : arrQ (V1 (F := Ideal) m ρ) c = m ((c : Thread nD τ).loc main_arg4) := V1_of_ne m ρ c main_arg4 (by decide)
theorem arrR_launch : arrR (V1 (F := Ideal) m ρ) c = m ((c : Thread nD τ).loc main_arg5) := V1_of_ne m ρ c main_arg5 (by decide)
theorem arrC_launch : arrC (V1 (F := Ideal) m ρ) c = m ((c : Thread nD τ).loc main_arg6) := V1_of_ne m ρ c main_arg6 (by decide)

theorem arrN_units : arrN (V1 (F := Ideal) m ρ) c = unitRows (m ((c : Thread nD τ).loc main_arg1)) :=
  (W1_arr m ρ c 1).trans (arr0_eq (V0 m ρ) c)

theorem lossLane0 (b : Fin 8192) :
    rowLoss (V1 (F := Ideal) m ρ) c 0 b
      = lossK (cosRow (m ((c : Thread nD τ).loc main_arg1)) (row (m ((c : Thread nD τ).loc main_arg0)) b))
          ((m ((c : Thread nD τ).loc main_arg6) : S8192x1.Idx → BitVec 32) (ix2 b 0)) := by
  rw [rowLoss_0 _ c 0 b rfl, arrP_launch, arrN_units, arrC_launch]
  rfl

theorem lossLane1 (b : Fin 8192) :
    rowLoss (V1 (F := Ideal) m ρ) c 1 b
      = objK (row (m ((c : Thread nD τ).loc main_arg2)) b) (row (m ((c : Thread nD τ).loc main_arg3)) b) := by
  rw [rowLoss_1 _ c 1 b rfl, arrV_launch, arrW_launch]

theorem lossLane2 (b : Fin 8192) :
    rowLoss (V1 (F := Ideal) m ρ) c 2 b
      = lossK (row (m ((c : Thread nD τ).loc main_arg5)) b)
          ((m ((c : Thread nD τ).loc main_arg6) : S8192x1.Idx → BitVec 32) (ix2 b 0)) := by
  rw [rowLoss_2 _ c 2 b rfl, arrR_launch, arrC_launch]

theorem lossLane3 (b : Fin 8192) :
    rowLoss (V1 (F := Ideal) m ρ) c 3 b
      = lossK (row (m ((c : Thread nD τ).loc main_arg4)) b)
          ((m ((c : Thread nD τ).loc main_arg6) : S8192x1.Idx → BitVec 32) (ix2 b 0)) := by
  rw [rowLoss_3 _ c 3 b rfl, arrQ_launch, arrC_launch]

theorem W2_sums :
    accOf (W2 (F := Ideal) m ρ c) = ((dat1 (F := Ideal) (V1 m ρ) c).arrAt 7 cfg1.N : S16x128.Idx → EReal) :=
  W2_arr m ρ c 7

-- The blocked program returns Spec.outK of the argument arrays.
theorem kernel_out :
    (W3 (F := Ideal) m ρ c (Proc.devRef .tc main_v27) : S3.Idx → EReal)
      = outK (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (fun b => (m ((c : Thread nD τ).loc main_arg6) : S8192x1.Idx → BitVec 32) (ix2 b 0)) := by
  refine (tail_apply (W2 (F := Ideal) m ρ c)).trans ?_
  exact out_of_rows _ _ _ _ _ _ _ (accOf (W2 (F := Ideal) m ρ c)) (rowLoss (V1 (F := Ideal) m ρ) c)
    (fun cc l => (congrFun (W2_sums m ρ c) _).trans (arr1_apply (V1 (F := Ideal) m ρ) c cc l))
    (lossLane0 m ρ c) (lossLane1 m ρ c) (lossLane2 m ρ c) (lossLane3 m ρ c)

end Arrays

end Cert.KernelIdeal.KVal

end
-- ==== Proof.RefRun.lean ====
import proofs.«402368_j74302934221059_3_alg».proof.Proof.RefOps
import proofs.«402368_j74302934221059_3_alg».proof.Proof.RefStages
import proofs.«402368_j74302934221059_3_alg».proof.Proof.LibNary3

noncomputable section

namespace Cert.ReferenceIdeal.RunStages

open Cert.ReferenceIdeal Cert.ReferenceIdeal.Gen Idealize.ShloMosaic Idealize.ShloMosaic.TcCoe Idealize.SL.Sem Idealize.ShloMosaic.StableHlo

variable {F : FTy → Type} [FloatOps F]

-- The result concatenates three one-entry stages; each operand is its stage value by one pass over the operation list.
set_option maxHeartbeats 73600000 in
theorem after_ops (V : Valuation τ sig (Elt F)) :
    after ops V (Proc.devRef .tc main_v71) = Read.val_main_v71 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  have h68 : after ops V (Proc.devRef .tc main_v68) = Read.val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
    simp (disch := decide) only [after_cons, after_nil,
      nullary_result', unary_result', binary_result', ternary_result', reshape_result',
      nullary_result_ne', unary_result_ne', binary_result_ne', ternary_result_ne', reshape_result_ne', nary_result_ne',
      TRef.ofBuf, TRef.toBuf, cast_eq]
    rfl
  have h69 : after ops V (Proc.devRef .tc main_v69) = Read.val_main_v69 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) := by
    simp (disch := decide) only [after_cons, after_nil,
      nullary_result', unary_result', binary_result', ternary_result', reshape_result',
      nullary_result_ne', unary_result_ne', binary_result_ne', ternary_result_ne', reshape_result_ne', nary_result_ne',
      TRef.ofBuf, TRef.toBuf, cast_eq]
    rfl
  have h70 : after ops V (Proc.devRef .tc main_v70) = Read.val_main_v70 (F := F) (V (Proc.devRef .tc main_arg4)) (V (Proc.devRef .tc main_arg6)) := by
    simp (disch := decide) only [after_cons, after_nil,
      nullary_result', unary_result', binary_result', ternary_result', reshape_result',
      nullary_result_ne', unary_result_ne', binary_result_ne', ternary_result_ne', reshape_result_ne', nary_result_ne',
      TRef.ofBuf, TRef.toBuf, cast_eq]
    rfl
  have key : after ops V (Proc.devRef .tc main_v71) = concatenate S3 0 [⟨S1, after ops V (Proc.devRef .tc main_v68)⟩, ⟨S1, after ops V (Proc.devRef .tc main_v69)⟩, ⟨S1, after ops V (Proc.devRef .tc main_v70)⟩] concatenates_S1_S1_S1_S3_d0 := by
    simp only [after_cons, after_nil]
    rw [nary3_result_curried (x := main_v68) (a := main_v69) (b := main_v70) (y := main_v71)
      (fun p q r => concatenate S3 0 [⟨S1, p⟩, ⟨S1, q⟩, ⟨S1, r⟩] concatenates_S1_S1_S1_S3_d0),
      nary_result_ne, nary_result_ne, nary_result_ne]
    all_goals decide
  rw [key, h68, h69, h70]; rfl

-- Every execution ends with the result at the last stage's value of the arguments, and the arguments unchanged.
set_option maxRecDepth 8192 in
set_option maxHeartbeats 73600000 in
theorem run_stage (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = Read.val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v71).trans (after_ops _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RunStages

end
-- ==== Proof.RefValue.lean ====
import proofs.«402368_j74302934221059_3_alg».proof.Proof.RefStages
import proofs.«402368_j74302934221059_3_alg».proof.Proof.Spec
import proofs.«402368_j74302934221059_3_alg».proof.Proof.LibNary3
import Idealize.ShloMosaic.Lib.ValueIdx
import Idealize.ShloMosaic.Lib.Pipeline.Value
import Idealize.ShloMosaic.Lib.StableHlo.Predicate
import Idealize.ShloMosaic.PureOps.Ideal.Laws
import Idealize.ShloMosaic.PureOps.Reduce

noncomputable section

namespace Cert.RefValue

open Idealize.ShloMosaic Idealize.ShloMosaic.ValueIdx Cert.ReferenceIdeal Cert.ReferenceIdeal.Gen Cert.ReferenceIdeal.Read

namespace Lib

theorem fold_andi_ones {ι : Type} [DecidableEq ι] (S : Finset ι) :
    S.fold IntOp.andi 1#1 (fun _ : ι => (1#1 : BitVec 1)) = 1#1 := by
  induction S using Finset.induction_on with
  | empty => rfl
  | insert a S ha ih => rw [Finset.fold_insert ha, ih]; rfl

theorem reduce_andi_ones {s t u : Shape} {a : Fin s.rank} (p : s.Idx → BitVec 1) (hp : ∀ i, p i = 1#1)
    (init : u.Idx → BitVec 1) (h' : s.ReducesTo [a] t) (h : s.Reduces [a] t) (hu : 0 < u.numel)
    (hinit : init (Shape.Idx.first hu) = 1#1) (j : t.Idx) : Host.reduce IntOp.andi p init h' hu j = 1#1 := by
  classical
  have e : p = fun _ => (1#1 : BitVec 1) := funext hp
  subst e
  rw [Host.reduce_eq_fold_single IntOp.andi _ init h' h hu j, hinit]
  exact fold_andi_ones _

abbrev rowDims (n m : Nat)
    (wf : GatherDims.WF ⟨2, ![n, m]⟩ ⟨3, ![n, 1, 1]⟩ ⟨2, ![n, 1]⟩ [] [1] [0] [1] [0] 2 ![1, 1]) :
    GatherDims ⟨2, ![n, m]⟩ ⟨3, ![n, 1, 1]⟩ ⟨2, ![n, 1]⟩ where
  offsetDims := []
  collapsedSliceDims := [1]
  operandBatchingDims := [0]
  startIndicesBatchingDims := [0]
  startIndexMap := [1]
  indexVectorDim := 2
  sliceSizes := ![1, 1]
  wf := wf

-- A gather along axis 1 with one index per row reads, in row b, the column its clamped index names.
theorem gather_row_apply {α : Type} {n m w : Nat} (hm : 0 < m)
    (wf : GatherDims.WF ⟨2, ![n, m]⟩ ⟨3, ![n, 1, 1]⟩ ⟨2, ![n, 1]⟩ [] [1] [0] [1] [0] 2 ![1, 1])
    (x : (⟨2, ![n, m]⟩ : Shape).Idx → α) (idx : IVec ⟨3, ![n, 1, 1]⟩ w) (b : Fin n) :
    Host.gather (rowDims n m wf) x idx (ix2 b 0)
      = x (ix2 b ⟨min (idx (ix3 b 0 0)).toInt.toNat (m - 1), by omega⟩) := by
  unfold Host.gather
  congr 1
  funext a
  refine Fin.ext ?_
  match a with
  | ⟨0, _⟩ =>
    show (rowDims n m wf).start (ix2 b 0) idx 0 + (rowDims n m wf).batchCoord (ix2 b 0) 0
        + (rowDims n m wf).offCoord (ix2 b 0) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowDims n m wf).operandBatchingDims from List.mem_singleton.mpr rfl)]
    rfl
  | ⟨1, _⟩ =>
    show (rowDims n m wf).start (ix2 b 0) idx 1 + (rowDims n m wf).batchCoord (ix2 b 0) 1
        + (rowDims n m wf).offCoord (ix2 b 0) 1 = min (idx (ix3 b 0 0)).toInt.toNat (m - 1)
    rw [GatherDims.batchCoord_eq_zero _ _ _ (show (1 : Fin 2) ∉ ([0] : List (Fin 2)) from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims n m wf).startIndexMap from List.mem_singleton.mpr rfl)]
    have hsi : (rowDims n m wf).siIdx (ix2 b 0) ⟨List.idxOf (1 : Fin 2) (rowDims n m wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl

theorem ofBits_neg_inf : Ideal.ofBits .f32 0xFF800000#32 = (⊥ : EReal) := by simp [Ideal.ofBits, Ideal.ieee]

theorem reduce_max_row {n m : Nat} {u : Shape} (x : (⟨2, ![n, m]⟩ : Shape).Idx → EReal) (init : u.Idx → EReal)
    (h' : (⟨2, ![n, m]⟩ : Shape).ReducesTo [1] ⟨1, ![n]⟩) (h : (⟨2, ![n, m]⟩ : Shape).Reduces [1] ⟨1, ![n]⟩)
    (hu : 0 < u.numel) (hinit : init (Shape.Idx.first hu) = ⊥) (b : Fin n) :
    Host.reduce (FloatOps.maximumf (F := Ideal) (φ := .f32)) x init h' hu (ix1 b)
      = (Finset.univ : Finset (Fin m)).fold max ⊥ (fun k => x (ix2 b k)) := by
  rw [Host.reduce_eq_fold_single (FloatOps.maximumf (F := Ideal) (φ := .f32)) x init h' h hu (ix1 b), hinit]
  show (Finset.univ : Finset (Fin m)).fold max ⊥ (x ∘ h.lift (ix1 b)) = _
  congr 1
  funext k
  show x (h.lift (ix1 b) k) = x (ix2 b k)
  congr 1
  funext c
  refine Fin.ext ?_
  rw [h.lift_val]
  match c with
  | ⟨0, _⟩ => rfl
  | ⟨1, _⟩ => rfl

theorem word_slt_zero (k : Fin 3129) : IntOp.cmpi .slt (BitVec.ofNat 32 k.val) 0#32 = 0#1 := by
  have hk := k.isLt
  apply eq_zero_of_ne_one
  intro h
  have := (StableHlo.Predicate.slt_iff_toNat (a := BitVec.ofNat 32 k.val) (b := 0#32)
    (by simp [BitVec.toNat_ofNat]; omega) (by decide)).1 h
  simp at this
theorem word_sge_zero (k : Fin 3129) : IntOp.cmpi .sge (BitVec.ofNat 32 k.val) 0#32 = 1#1 :=
  have hk := k.isLt
  (StableHlo.Predicate.sge_iff_toNat (a := BitVec.ofNat 32 k.val) (b := 0#32)
    (by simp [BitVec.toNat_ofNat]; omega) (by decide)).2 (by simp)
theorem word_sle_max (k : Fin 3129) : IntOp.cmpi .sle (BitVec.ofNat 32 k.val) 3128#32 = 1#1 :=
  have hk := k.isLt
  (StableHlo.Predicate.sle_iff_toNat (a := BitVec.ofNat 32 k.val) (b := 3128#32)
    (by simp [BitVec.toNat_ofNat]; omega) (by decide)).2 (by simp [BitVec.toNat_ofNat]; omega)
theorem word_clamp (k : Fin 3129) : min (BitVec.ofNat 32 k.val).toInt.toNat (3129 - 1) = k.val := by
  have hk := k.isLt
  rw [StableHlo.Predicate.toInt_ofNat_small k.val (by omega)]
  simp; omega

def idxEquiv1 {n : Nat} : (⟨1, ![n]⟩ : Shape).Idx ≃ Fin n where
  toFun i := i 0
  invFun a := ix1 a
  left_inv i := (eq_ix1 i).symm
  right_inv _ := rfl
theorem sum_idx1 {n : Nat} (f : (⟨1, ![n]⟩ : Shape).Idx → EReal) : ∑ i, f i = ∑ a : Fin n, f (ix1 a) :=
  (Equiv.sum_comp (idxEquiv1 (n := n)).symm f).symm
theorem sum_fin1 (g : Fin 1 → EReal) : ∑ b, g b = g 0 := by simp

end Lib
open Lib

theorem unit0 (x0 : S8192x512.Idx → EReal) (b : Fin 8192) (d : Fin 512) :
    val_main_v8 (F := Ideal) x0 (ix2 b d) = Spec.unit (Spec.row x0 b) d := by
  rw [val_main_v8_apply, val_main_v7_apply, val_main_v6_apply, val_main_v4_apply, val_main_v3_apply,
    val_main_v2_apply, val_main_v5_apply, val_main_cst_0_apply, val_main_cst_apply]
  simp only [val_main_v1_apply]
  have hidx : ∀ k : Fin 512, idx_main_v2 (idx_main_v3 (idx_main_v7 (ix2 b d))) k = ix2 b k := fun k => by
    funext a; match a with | ⟨0, _⟩ => rfl | ⟨1, _⟩ => rfl
  simp only [hidx]
  show Ideal.div (x0 (ix2 b d)) (max (Ideal.sqrt (Ideal.ofBits .f32 0x00000000#32 + ∑ k : Fin 512, x0 (ix2 b k) * x0 (ix2 b k)))
    (Ideal.ofBits .f32 0x322BCC77#32)) = _
  rw [Ideal.ofBits_zero_f32, zero_add]
  rfl

theorem unit1 (x1 : S3129x512.Idx → EReal) (b : Fin 3129) (d : Fin 512) :
    val_main_v16 (F := Ideal) x1 (ix2 b d) = Spec.unit (Spec.row x1 b) d := by
  rw [val_main_v16_apply, val_main_v15_apply, val_main_v14_apply, val_main_v12_apply, val_main_v11_apply,
    val_main_v10_apply, val_main_v13_apply, val_main_cst_2_apply, val_main_cst_1_apply]
  simp only [val_main_v9_apply]
  have hidx : ∀ k : Fin 512, idx_main_v10 (idx_main_v11 (idx_main_v15 (ix2 b d))) k = ix2 b k := fun k => by
    funext a; match a with | ⟨0, _⟩ => rfl | ⟨1, _⟩ => rfl
  simp only [hidx]
  show Ideal.div (x1 (ix2 b d)) (max (Ideal.sqrt (Ideal.ofBits .f32 0x00000000#32 + ∑ k : Fin 512, x1 (ix2 b k) * x1 (ix2 b k)))
    (Ideal.ofBits .f32 0x322BCC77#32)) = _
  rw [Ideal.ofBits_zero_f32, zero_add]
  rfl

theorem unit2 (x2 : S8192x512.Idx → EReal) (b : Fin 8192) (d : Fin 512) :
    val_main_v36 (F := Ideal) x2 (ix2 b d) = Spec.unit (Spec.row x2 b) d := by
  rw [val_main_v36_apply, val_main_v35_apply, val_main_v34_apply, val_main_v32_apply, val_main_v31_apply,
    val_main_v30_apply, val_main_v33_apply, val_main_cst_7_apply, val_main_cst_6_apply]
  simp only [val_main_v29_apply]
  have hidx : ∀ k : Fin 512, idx_main_v30 (idx_main_v31 (idx_main_v35 (ix2 b d))) k = ix2 b k := fun k => by
    funext a; match a with | ⟨0, _⟩ => rfl | ⟨1, _⟩ => rfl
  simp only [hidx]
  show Ideal.div (x2 (ix2 b d)) (max (Ideal.sqrt (Ideal.ofBits .f32 0x00000000#32 + ∑ k : Fin 512, x2 (ix2 b k) * x2 (ix2 b k)))
    (Ideal.ofBits .f32 0x322BCC77#32)) = _
  rw [Ideal.ofBits_zero_f32, zero_add]
  rfl

theorem unit3 (x3 : S8192x512.Idx → EReal) (b : Fin 8192) (d : Fin 512) :
    val_main_v44 (F := Ideal) x3 (ix2 b d) = Spec.unit (Spec.row x3 b) d := by
  rw [val_main_v44_apply, val_main_v43_apply, val_main_v42_apply, val_main_v40_apply, val_main_v39_apply,
    val_main_v38_apply, val_main_v41_apply, val_main_cst_9_apply, val_main_cst_8_apply]
  simp only [val_main_v37_apply]
  have hidx : ∀ k : Fin 512, idx_main_v38 (idx_main_v39 (idx_main_v43 (ix2 b d))) k = ix2 b k := fun k => by
    funext a; match a with | ⟨0, _⟩ => rfl | ⟨1, _⟩ => rfl
  simp only [hidx]
  show Ideal.div (x3 (ix2 b d)) (max (Ideal.sqrt (Ideal.ofBits .f32 0x00000000#32 + ∑ k : Fin 512, x3 (ix2 b k) * x3 (ix2 b k)))
    (Ideal.ofBits .f32 0x322BCC77#32)) = _
  rw [Ideal.ofBits_zero_f32, zero_add]
  rfl

theorem cos_eq (x0 : S8192x512.Idx → EReal) (x1 : S3129x512.Idx → EReal) (b : Fin 8192) (m : Fin 3129) :
    val_main_v17 (F := Ideal) x0 x1 (ix2 b m) = Spec.cosRow x1 (Spec.row x0 b) m := by
  rw [val_main_v17_apply]
  have hl : ∀ k : Fin 512, lidx_main_v17 (ix2 b m) k = ix2 b k := fun k => by
    funext a; match a with | ⟨0, _⟩ => rfl | ⟨1, _⟩ => rfl
  have hr : ∀ k : Fin 512, ridx_main_v17 (ix2 b m) k = ix2 m k := fun k => by
    funext a; match a with | ⟨0, _⟩ => rfl | ⟨1, _⟩ => rfl
  simp only [hl, hr, unit0, unit1]
  rfl

section ClassWord
variable (x6 : S8192x1.Idx → BitVec 32) (cls : Fin 8192 → Fin 3129)
  (hcls : ∀ b : Fin 8192, x6 (ix2 b 0) = BitVec.ofNat 32 (cls b).val)
include hcls

theorem v0_word (k : S8192.Idx) : val_main_v0 (F := Ideal) x6 k = BitVec.ofNat 32 (cls (k 0)).val := by
  rw [val_main_v0_apply]
  have e : idx_main_v0 k = ix2 (k 0) 0 := by
    funext a; match a with | ⟨0, _⟩ => exact Fin.ext (Nat.div_one _) | ⟨1, _⟩ => rfl
  rw [e]
  exact hcls (k 0)

-- With every class word in range the clamp is the identity: the gather picks the class entry.
theorem take_row (y : S8192x3129.Idx → EReal) (idx : IVec S8192x1x1 32)
    (hidx : ∀ b : Fin 8192, idx (ix3 b 0 0) = BitVec.ofNat 32 (cls b).val) (b : Fin 8192) :
    Host.gather gather_S8192x3129_S8192x1x1_S8192x1_n_1_0_0_1_2_11 y idx (ix2 b 0) = y (ix2 b (cls b)) := by
  have wf : GatherDims.WF ⟨2, ![8192, 3129]⟩ ⟨3, ![8192, 1, 1]⟩ ⟨2, ![8192, 1]⟩ [] [1] [0] [1] [0] 2 ![1, 1] :=
    (gather_S8192x3129_S8192x1x1_S8192x1_n_1_0_0_1_2_11).wf
  have e : Host.gather gather_S8192x3129_S8192x1x1_S8192x1_n_1_0_0_1_2_11 y idx (ix2 b 0)
      = y (ix2 b ⟨min (idx (ix3 b 0 0)).toInt.toNat (3129 - 1), by omega⟩) :=
    gather_row_apply (n := 8192) (m := 3129) (by decide) wf y idx b
  refine e.trans (congrArg (fun k => y (ix2 b k)) (Fin.ext ?_))
  show min (idx (ix3 b 0 0)).toInt.toNat (3129 - 1) = (cls b).val
  rw [hidx, word_clamp]

theorem col0 (j : S8192x1.Idx) : val_main_v18 (F := Ideal) x6 j = BitVec.ofNat 32 (cls (j 0)).val := by
  rw [val_main_v18_apply, v0_word x6 cls hcls]
  rfl

theorem call0_v5 (i : S8192x1x1.Idx) : val_main_call0_v5 (F := Ideal) x6 i = BitVec.ofNat 32 (cls (i 0)).val := by
  rw [val_main_call0_v5_apply, val_main_call0_v4_apply, val_main_call0_v1_apply, col0 x6 cls hcls,
    val_main_call0_v0_apply, val_main_call0_c_apply, word_slt_zero, select_zero]
  have e : (idx_main_call0_v5 i) 0 = i 0 := Fin.ext (by
    have h1 : (i 1).val < 1 := (i 1).isLt
    have h2 : (i 2).val < 1 := (i 2).isLt
    show (((i 0).val * 1 + (i 1).val) * 1 + (i 2).val) / 1 = (i 0).val
    omega)
  exact congrArg (fun t => BitVec.ofNat 32 (cls t).val) e

theorem call0_mask (j : S8192x1.Idx) : val_main_call0_v12 (F := Ideal) x6 j = 1#1 := by
  unfold val_main_call0_v12
  refine reduce_andi_ones _ (fun i => ?_) _ _ (by decide) h_S_ rfl j
  rw [val_main_call0_v11_apply, val_main_call0_v7_apply, val_main_call0_v10_apply, call0_v5 x6 cls hcls,
    val_main_call0_v6_apply, val_main_call0_c_2_apply, val_main_call0_v9_apply, val_main_call0_v8_apply,
    val_main_call0_c_1_apply, word_sge_zero, word_sle_max]
  rfl

theorem col2 (j : S8192x1.Idx) : val_main_v52 (F := Ideal) x6 j = BitVec.ofNat 32 (cls (j 0)).val := by
  rw [val_main_v52_apply, v0_word x6 cls hcls]
  rfl

theorem call2_v5 (i : S8192x1x1.Idx) : val_main_call2_v5 (F := Ideal) x6 i = BitVec.ofNat 32 (cls (i 0)).val := by
  rw [val_main_call2_v5_apply, val_main_call2_v4_apply, val_main_call2_v1_apply, col2 x6 cls hcls,
    val_main_call2_v0_apply, val_main_call2_c_apply, word_slt_zero, select_zero]
  have e : (idx_main_call2_v5 i) 0 = i 0 := Fin.ext (by
    have h1 : (i 1).val < 1 := (i 1).isLt
    have h2 : (i 2).val < 1 := (i 2).isLt
    show (((i 0).val * 1 + (i 1).val) * 1 + (i 2).val) / 1 = (i 0).val
    omega)
  exact congrArg (fun t => BitVec.ofNat 32 (cls t).val) e

theorem call2_mask (j : S8192x1.Idx) : val_main_call2_v12 (F := Ideal) x6 j = 1#1 := by
  unfold val_main_call2_v12
  refine reduce_andi_ones _ (fun i => ?_) _ _ (by decide) h_S_ rfl j
  rw [val_main_call2_v11_apply, val_main_call2_v7_apply, val_main_call2_v10_apply, call2_v5 x6 cls hcls,
    val_main_call2_v6_apply, val_main_call2_c_2_apply, val_main_call2_v9_apply, val_main_call2_v8_apply,
    val_main_call2_c_1_apply, word_sge_zero, word_sle_max]
  rfl

theorem col4 (j : S8192x1.Idx) : val_main_v61 (F := Ideal) x6 j = BitVec.ofNat 32 (cls (j 0)).val := by
  rw [val_main_v61_apply, v0_word x6 cls hcls]
  rfl

theorem call4_v5 (i : S8192x1x1.Idx) : val_main_call4_v5 (F := Ideal) x6 i = BitVec.ofNat 32 (cls (i 0)).val := by
  rw [val_main_call4_v5_apply, val_main_call4_v4_apply, val_main_call4_v1_apply, col4 x6 cls hcls,
    val_main_call4_v0_apply, val_main_call4_c_apply, word_slt_zero, select_zero]
  have e : (idx_main_call4_v5 i) 0 = i 0 := Fin.ext (by
    have h1 : (i 1).val < 1 := (i 1).isLt
    have h2 : (i 2).val < 1 := (i 2).isLt
    show (((i 0).val * 1 + (i 1).val) * 1 + (i 2).val) / 1 = (i 0).val
    omega)
  exact congrArg (fun t => BitVec.ofNat 32 (cls t).val) e

theorem call4_mask (j : S8192x1.Idx) : val_main_call4_v12 (F := Ideal) x6 j = 1#1 := by
  unfold val_main_call4_v12
  refine reduce_andi_ones _ (fun i => ?_) _ _ (by decide) h_S_ rfl j
  rw [val_main_call4_v11_apply, val_main_call4_v7_apply, val_main_call4_v10_apply, call4_v5 x6 cls hcls,
    val_main_call4_v6_apply, val_main_call4_c_2_apply, val_main_call4_v9_apply, val_main_call4_v8_apply,
    val_main_call4_c_1_apply, word_sge_zero, word_sle_max]
  rfl

theorem v19_eq (x0 : S8192x512.Idx → EReal) (x1 : S3129x512.Idx → EReal) (b : Fin 8192) :
    val_main_v19 (F := Ideal) x0 x1 x6 (ix2 b 0) = val_main_v17 (F := Ideal) x0 x1 (ix2 b (cls b)) := by
  rw [val_main_v19_apply, call0_mask x6 cls hcls, select_one]
  unfold val_main_call0_v13
  exact take_row x6 cls hcls _ _ (fun b => call0_v5 x6 cls hcls (ix3 b 0 0)) b

theorem v53_eq (x5 : S8192x3129.Idx → EReal) (b : Fin 8192) :
    val_main_v53 (F := Ideal) x5 x6 (ix2 b 0) = val_main_v51 (F := Ideal) x5 (ix2 b (cls b)) := by
  rw [val_main_v53_apply, call2_mask x6 cls hcls, select_one]
  unfold val_main_call2_v13
  exact take_row x6 cls hcls _ _ (fun b => call2_v5 x6 cls hcls (ix3 b 0 0)) b

theorem v62_eq (x4 : S8192x3129.Idx → EReal) (b : Fin 8192) :
    val_main_v62 (F := Ideal) x4 x6 (ix2 b 0) = val_main_v60 (F := Ideal) x4 (ix2 b (cls b)) := by
  rw [val_main_v62_apply, call4_mask x6 cls hcls, select_one]
  unfold val_main_call4_v13
  exact take_row x6 cls hcls _ _ (fun b => call4_v5 x6 cls hcls (ix3 b 0 0)) b

end ClassWord

theorem rmax1 (x5 : S8192x3129.Idx → EReal) (b : Fin 8192) :
    val_main_call1_v2 (F := Ideal) x5 (ix1 b) = Spec.rmax (Spec.row x5 b) := by
  rw [val_main_call1_v2_apply, val_main_call1_v1_apply, val_main_call1_cst_0_apply]
  unfold val_main_call1_v0
  rw [reduce_max_row x5 _ _ (by decide) h_S_ (show Ideal.ofBits .f32 0xFF800000#32 = ⊥ from ofBits_neg_inf) b]
  show max (Ideal.ofBits .f32 0xFF800000#32) _ = _
  rw [ofBits_neg_inf, max_bot_left]
  rfl

theorem logp1 (x5 : S8192x3129.Idx → EReal) (b : Fin 8192) (m : Fin 3129) :
    val_main_v51 (F := Ideal) x5 (ix2 b m) = Spec.logpR (Spec.row x5 b) m := by
  have i3 : ∀ k : Fin 3129, idx_main_call1_v3 (idx_main_call1_v4 (ix2 b k)) = ix1 b := fun k => by
    funext a; match a with | ⟨0, _⟩ => rfl
  have i7 : ∀ k : Fin 3129, idx_main_call1_v7 (idx_main_call1_v8 (idx_main_call1_v10 (ix2 b m))) k = ix2 b k := fun k => by
    funext a; match a with | ⟨0, _⟩ => rfl | ⟨1, _⟩ => rfl
  have h5 : ∀ k : Fin 3129, val_main_call1_v5 (F := Ideal) x5 (ix2 b k) = x5 (ix2 b k) - Spec.rmax (Spec.row x5 b) := fun k => by
    rw [val_main_call1_v5_apply, val_main_call1_v4_apply, val_main_call1_v3_apply, i3, rmax1]
    rfl
  rw [val_main_v51_apply, h5, val_main_call1_v10_apply, val_main_call1_v9_apply, val_main_call1_v8_apply,
    val_main_call1_v7_apply, val_main_call1_cst_1_apply]
  simp only [val_main_call1_v6_apply, i7, h5]
  show (x5 (ix2 b m) - Spec.rmax (Spec.row x5 b))
      - Ideal.log (Ideal.ofBits .f32 0x00000000#32 + ∑ k : Fin 3129, Ideal.exp (x5 (ix2 b k) - Spec.rmax (Spec.row x5 b))) = _
  rw [Ideal.ofBits_zero_f32, zero_add]
  rfl

theorem rmax3 (x4 : S8192x3129.Idx → EReal) (b : Fin 8192) :
    val_main_call3_v2 (F := Ideal) x4 (ix1 b) = Spec.rmax (Spec.row x4 b) := by
  rw [val_main_call3_v2_apply, val_main_call3_v1_apply, val_main_call3_cst_0_apply]
  unfold val_main_call3_v0
  rw [reduce_max_row x4 _ _ (by decide) h_S_ (show Ideal.ofBits .f32 0xFF800000#32 = ⊥ from ofBits_neg_inf) b]
  show max (Ideal.ofBits .f32 0xFF800000#32) _ = _
  rw [ofBits_neg_inf, max_bot_left]
  rfl

theorem logp3 (x4 : S8192x3129.Idx → EReal) (b : Fin 8192) (m : Fin 3129) :
    val_main_v60 (F := Ideal) x4 (ix2 b m) = Spec.logpR (Spec.row x4 b) m := by
  have i3 : ∀ k : Fin 3129, idx_main_call3_v3 (idx_main_call3_v4 (ix2 b k)) = ix1 b := fun k => by
    funext a; match a with | ⟨0, _⟩ => rfl
  have i7 : ∀ k : Fin 3129, idx_main_call3_v7 (idx_main_call3_v8 (idx_main_call3_v10 (ix2 b m))) k = ix2 b k := fun k => by
    funext a; match a with | ⟨0, _⟩ => rfl | ⟨1, _⟩ => rfl
  have h5 : ∀ k : Fin 3129, val_main_call3_v5 (F := Ideal) x4 (ix2 b k) = x4 (ix2 b k) - Spec.rmax (Spec.row x4 b) := fun k => by
    rw [val_main_call3_v5_apply, val_main_call3_v4_apply, val_main_call3_v3_apply, i3, rmax3]
    rfl
  rw [val_main_v60_apply, h5, val_main_call3_v10_apply, val_main_call3_v9_apply, val_main_call3_v8_apply,
    val_main_call3_v7_apply, val_main_call3_cst_1_apply]
  simp only [val_main_call3_v6_apply, i7, h5]
  show (x4 (ix2 b m) - Spec.rmax (Spec.row x4 b))
      - Ideal.log (Ideal.ofBits .f32 0x00000000#32 + ∑ k : Fin 3129, Ideal.exp (x4 (ix2 b k) - Spec.rmax (Spec.row x4 b))) = _
  rw [Ideal.ofBits_zero_f32, zero_add]
  rfl

section Means
variable (x6 : S8192x1.Idx → BitVec 32) (cls : Fin 8192 → Fin 3129)
  (hcls : ∀ b : Fin 8192, x6 (ix2 b 0) = BitVec.ofNat 32 (cls b).val)
include hcls

theorem nce_row (x0 : S8192x512.Idx → EReal) (x1 : S3129x512.Idx → EReal) (b : Fin 8192) :
    val_main_v26 (F := Ideal) x0 x1 x6 (ix1 b) = Spec.nceR (Spec.cosRow x1 (Spec.row x0 b)) (cls b) := by
  have h20 : idx_main_v20 (ix1 b) = ix2 b 0 := by
    funext a; match a with | ⟨0, _⟩ => exact Fin.ext (Nat.div_one _) | ⟨1, _⟩ => rfl
  have h23 : ∀ k : Fin 3129, idx_main_v23 (ix1 b) k = ix2 b k := fun k => by
    funext a; match a with | ⟨0, _⟩ => rfl | ⟨1, _⟩ => rfl
  rw [val_main_v26_apply, val_main_v25_apply, val_main_v24_apply, val_main_v21_apply, val_main_v20_apply, h20,
    v19_eq x6 cls hcls, cos_eq, val_main_v23_apply, val_main_cst_3_apply]
  simp only [val_main_v22_apply, h23, cos_eq]
  show -(Ideal.log (Ideal.div (Ideal.exp (Spec.cosRow x1 (Spec.row x0 b) (cls b)))
      (Ideal.ofBits .f32 0x00000000#32 + ∑ k : Fin 3129, Ideal.exp (Spec.cosRow x1 (Spec.row x0 b) k)))) = _
  rw [Ideal.ofBits_zero_f32, zero_add]
  rfl

theorem nce_mean (x0 : S8192x512.Idx → EReal) (x1 : S3129x512.Idx → EReal) (i : S_.Idx) :
    val_main_v28 (F := Ideal) x0 x1 x6 i
      = Ideal.div (∑ b : Fin 8192, Spec.nceR (Spec.cosRow x1 (Spec.row x0 b)) (cls b)) Spec.e8192 := by
  rw [val_main_v28_apply, val_main_v27_apply, val_main_cst_4_apply, val_main_cst_5_apply, sum_idx1]
  simp only [nce_row x6 cls hcls]
  show Ideal.div (Ideal.ofBits .f32 0x00000000#32 + ∑ b : Fin 8192, Spec.nceR (Spec.cosRow x1 (Spec.row x0 b)) (cls b))
    (Ideal.ofBits .f32 0x46000000#32) = _
  rw [Ideal.ofBits_zero_f32, zero_add]
  rfl

theorem cer_mean (x5 : S8192x3129.Idx → EReal) (i : S_.Idx) :
    val_main_v56 (F := Ideal) x5 x6 i = -(Ideal.div (∑ b : Fin 8192, Spec.logpR (Spec.row x5 b) (cls b)) Spec.e8192) := by
  rw [val_main_v56_apply, val_main_v55_apply, val_main_v54_apply, val_main_cst_14_apply, val_main_cst_15_apply,
    sum_idx2]
  simp only [sum_fin1, v53_eq x6 cls hcls, logp1]
  show -(Ideal.div (Ideal.ofBits .f32 0x00000000#32 + ∑ b : Fin 8192, Spec.logpR (Spec.row x5 b) (cls b)) (Ideal.ofBits .f32 0x46000000#32)) = _
  rw [Ideal.ofBits_zero_f32, zero_add]
  rfl

theorem ceq_mean (x4 : S8192x3129.Idx → EReal) (i : S_.Idx) :
    val_main_v65 (F := Ideal) x4 x6 i = -(Ideal.div (∑ b : Fin 8192, Spec.logpR (Spec.row x4 b) (cls b)) Spec.e8192) := by
  rw [val_main_v65_apply, val_main_v64_apply, val_main_v63_apply, val_main_cst_17_apply, val_main_cst_18_apply,
    sum_idx2]
  simp only [sum_fin1, v62_eq x6 cls hcls, logp3]
  show -(Ideal.div (Ideal.ofBits .f32 0x00000000#32 + ∑ b : Fin 8192, Spec.logpR (Spec.row x4 b) (cls b)) (Ideal.ofBits .f32 0x46000000#32)) = _
  rw [Ideal.ofBits_zero_f32, zero_add]
  rfl

end Means

theorem obj_row (x2 x3 : S8192x512.Idx → EReal) (b : Fin 8192) :
    val_main_v48 (F := Ideal) x2 x3 (ix1 b) = Spec.objK (Spec.row x2 b) (Spec.row x3 b) := by
  have h46 : ∀ k : Fin 512, idx_main_v46 (ix1 b) k = ix2 b k := fun k => by
    funext a; match a with | ⟨0, _⟩ => rfl | ⟨1, _⟩ => rfl
  rw [val_main_v48_apply, val_main_v47_apply, val_main_cst_11_apply, val_main_v46_apply, val_main_cst_10_apply]
  simp only [val_main_v45_apply, h46, unit2, unit3]
  show Ideal.ofBits .f32 0x3F800000#32 - (Ideal.ofBits .f32 0x00000000#32
      + ∑ k : Fin 512, Spec.unit (Spec.row x2 b) k * Spec.unit (Spec.row x3 b) k) = _
  rw [Ideal.ofBits_zero_f32, zero_add]
  rfl

theorem obj_mean (x2 x3 : S8192x512.Idx → EReal) (i : S_.Idx) :
    val_main_v50 (F := Ideal) x2 x3 i = Ideal.div (∑ b : Fin 8192, Spec.objK (Spec.row x2 b) (Spec.row x3 b)) Spec.e8192 := by
  rw [val_main_v50_apply, val_main_v49_apply, val_main_cst_12_apply, val_main_cst_13_apply, sum_idx1]
  simp only [obj_row]
  show Ideal.div (Ideal.ofBits .f32 0x00000000#32 + ∑ b : Fin 8192, Spec.objK (Spec.row x2 b) (Spec.row x3 b))
    (Ideal.ofBits .f32 0x46000000#32) = _
  rw [Ideal.ofBits_zero_f32, zero_add]
  rfl

-- The whole-array program's last stage is Spec.outR of the arguments, once every class word is some k < 3129.
theorem ref_stage (x0 : S8192x512.Idx → EReal) (x1 : S3129x512.Idx → EReal) (x2 x3 : S8192x512.Idx → EReal)
    (x4 x5 : S8192x3129.Idx → EReal) (x6 : S8192x1.Idx → BitVec 32)
    (cls : Fin 8192 → Fin 3129) (hcls : ∀ b : Fin 8192, x6 (ValueIdx.ix2 b 0) = BitVec.ofNat 32 (cls b).val) :
    Cert.ReferenceIdeal.Read.val_main_v71 (F := Ideal) x0 x1 x2 x3 x4 x5 x6 = Cert.Spec.outR x0 x1 x2 x3 x4 x5 cls := by
  funext j
  unfold val_main_v71
  refine (concat3_apply _ _ _ _ j).trans ?_
  rw [val_main_v68_apply, val_main_v69_apply, val_main_v70_apply, val_main_v67_apply, val_main_v66_apply,
    val_main_cst_19_apply, val_main_v59_apply, val_main_cst_16_apply, val_main_v58_apply, val_main_v57_apply,
    cer_mean x6 cls hcls, ceq_mean x6 cls hcls, nce_mean x6 cls hcls, obj_mean]
  rfl

end Cert.RefValue

end
-- ==== Proof.MathRows.lean ====
import proofs.«402368_j74302934221059_3_alg».proof.Proof.Spec
import Mathlib.Data.EReal.Basic
import Mathlib.Analysis.SpecialFunctions.Log.Basic
import Mathlib.Algebra.BigOperators.Field
import Mathlib.Order.Fin.Basic
import Idealize.ShloMosaic.PureOps.Ideal

noncomputable section

namespace Cert.Spec

open Idealize.ShloMosaic

theorem coe_finsum {ι : Type} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

theorem log_coe_pos {x : ℝ} (hx : 0 < x) : Ideal.log ((x : ℝ) : EReal) = ((Real.log x : ℝ) : EReal) := by
  rw [Ideal.log_coe, if_neg (not_le.mpr hx)]

theorem div_coe_coe (a : ℝ) {b : ℝ} (hb : b ≠ 0) :
    Ideal.div ((a : ℝ) : EReal) ((b : ℝ) : EReal) = ((a / b : ℝ) : EReal) := by
  rw [Ideal.div_coe hb, ← EReal.coe_mul, mul_one_div]

theorem sum_exp_pos (f : Fin 3129 → ℝ) : 0 < ∑ m : Fin 3129, Real.exp (f m) :=
  Finset.sum_pos (fun m _ => Real.exp_pos _) ⟨⟨0, by norm_num⟩, Finset.mem_univ _⟩

theorem sum_exp_shift (y : Fin 3129 → EReal) (r : Fin 3129 → ℝ) (hr : ∀ m, y m = ((r m : ℝ) : EReal)) (R : ℝ) :
    (∑ m : Fin 3129, Ideal.exp (y m - ((R : ℝ) : EReal)))
      = ((∑ m : Fin 3129, Real.exp (r m - R) : ℝ) : EReal) := by
  rw [← coe_finsum]
  refine Finset.sum_congr rfl (fun m _ => ?_)
  rw [hr m, ← EReal.coe_sub, Ideal.exp_coe]

theorem sum_exp_plain (y : Fin 3129 → EReal) (r : Fin 3129 → ℝ) (hr : ∀ m, y m = ((r m : ℝ) : EReal)) :
    (∑ m : Fin 3129, Ideal.exp (y m)) = ((∑ m : Fin 3129, Real.exp (r m) : ℝ) : EReal) := by
  rw [← coe_finsum]
  refine Finset.sum_congr rfl (fun m _ => ?_)
  rw [hr m, Ideal.exp_coe]

theorem log_sum_exp_shift (r : Fin 3129 → ℝ) (R : ℝ) :
    Real.log (∑ m : Fin 3129, Real.exp (r m - R)) = Real.log (∑ m : Fin 3129, Real.exp (r m)) - R := by
  have hS : 0 < ∑ m : Fin 3129, Real.exp (r m) := sum_exp_pos r
  have h : (∑ m : Fin 3129, Real.exp (r m - R)) = (∑ m : Fin 3129, Real.exp (r m)) / Real.exp R := by
    rw [Finset.sum_div]
    exact Finset.sum_congr rfl (fun m _ => Real.exp_sub _ _)
  rw [h, Real.log_div hS.ne' (Real.exp_pos R).ne', Real.log_exp]

theorem pickK_ofNat (y : Fin 3129 → EReal) (k : Fin 3129) : pickK y (BitVec.ofNat 32 k.val) = y k := by
  have h : ∀ m : Fin 3129, (BitVec.ofNat 32 m.val = BitVec.ofNat 32 k.val) ↔ m = k := by
    intro m
    constructor
    · intro e
      have e' := congrArg BitVec.toNat e
      simp only [BitVec.toNat_ofNat] at e'
      have hm := m.isLt
      have hk := k.isLt
      rw [Nat.mod_eq_of_lt (by omega), Nat.mod_eq_of_lt (by omega)] at e'
      exact Fin.ext e'
    · intro e
      rw [e]
  unfold pickK
  simp only [h]
  rw [Finset.sum_ite_eq']
  simp

theorem rmax_eq_sup (y : Fin 3129 → EReal) : rmax y = (Finset.univ : Finset (Fin 3129)).sup y := rfl

theorem rmax_real (y : Fin 3129 → EReal) (hy : ∀ m, ∃ r : ℝ, y m = (r : EReal)) :
    ∃ r : ℝ, rmax y = (r : EReal) ∧ ∀ m, y m ≤ rmax y := by
  obtain ⟨i, _, hi⟩ := Finset.exists_mem_eq_sup (Finset.univ : Finset (Fin 3129))
    ⟨⟨0, by norm_num⟩, Finset.mem_univ _⟩ y
  obtain ⟨r, hr⟩ := hy i
  refine ⟨r, ?_, ?_⟩
  · rw [rmax_eq_sup, hi, hr]
  · intro m
    rw [rmax_eq_sup]
    exact Finset.le_sup (Finset.mem_univ m)

theorem lossK_coe (y : Fin 3129 → EReal) (r : Fin 3129 → ℝ) (hr : ∀ m, y m = ((r m : ℝ) : EReal))
    (R : ℝ) (hR : rmax y = ((R : ℝ) : EReal)) (k : Fin 3129) :
    lossK y (BitVec.ofNat 32 k.val)
      = (((R + Real.log (∑ m : Fin 3129, Real.exp (r m - R))) - r k : ℝ) : EReal) := by
  unfold lossK lseK
  rw [pickK_ofNat, hR, sum_exp_shift y r hr R, log_coe_pos (sum_exp_pos _), hr k, ← EReal.coe_add,
    ← EReal.coe_sub]

theorem logpR_coe (y : Fin 3129 → EReal) (r : Fin 3129 → ℝ) (hr : ∀ m, y m = ((r m : ℝ) : EReal))
    (R : ℝ) (hR : rmax y = ((R : ℝ) : EReal)) (k : Fin 3129) :
    logpR y k = (((r k - R) - Real.log (∑ m : Fin 3129, Real.exp (r m - R)) : ℝ) : EReal) := by
  unfold logpR
  rw [hR, sum_exp_shift y r hr R, log_coe_pos (sum_exp_pos _), hr k, ← EReal.coe_sub, ← EReal.coe_sub]

theorem nceR_coe (y : Fin 3129 → EReal) (r : Fin 3129 → ℝ) (hr : ∀ m, y m = ((r m : ℝ) : EReal))
    (k : Fin 3129) :
    nceR y k = ((-(Real.log (Real.exp (r k) / ∑ m : Fin 3129, Real.exp (r m))) : ℝ) : EReal) := by
  unfold nceR
  rw [sum_exp_plain y r hr, hr k, Ideal.exp_coe, div_coe_coe _ (sum_exp_pos r).ne',
    log_coe_pos (div_pos (Real.exp_pos _) (sum_exp_pos r)), ← EReal.coe_neg]

theorem logpR_real (y : Fin 3129 → EReal) (hy : ∀ m, ∃ r : ℝ, y m = (r : EReal)) (k : Fin 3129) :
    ∃ r : ℝ, logpR y k = (r : EReal) := by
  obtain ⟨R, hR, _⟩ := rmax_real y hy
  choose r hr using hy
  exact ⟨_, logpR_coe y r hr R hR k⟩

theorem lossK_eq_neg_logpR (y : Fin 3129 → EReal) (hy : ∀ m, ∃ r : ℝ, y m = (r : EReal)) (k : Fin 3129) :
    lossK y (BitVec.ofNat 32 k.val) = -(logpR y k) := by
  obtain ⟨R, hR, _⟩ := rmax_real y hy
  choose r hr using hy
  rw [lossK_coe y r hr R hR k, logpR_coe y r hr R hR k, ← EReal.coe_neg]
  congr 1
  ring

theorem lossK_eq_nceR (y : Fin 3129 → EReal) (hy : ∀ m, ∃ r : ℝ, y m = (r : EReal)) (k : Fin 3129) :
    lossK y (BitVec.ofNat 32 k.val) = nceR y k := by
  obtain ⟨R, hR, _⟩ := rmax_real y hy
  choose r hr using hy
  rw [lossK_coe y r hr R hR k, nceR_coe y r hr k]
  congr 1
  rw [log_sum_exp_shift, Real.log_div (Real.exp_pos _).ne' (sum_exp_pos r).ne', Real.log_exp]
  ring

end Cert.Spec

end
-- ==== Proof.MathTotals.lean ====
import proofs.«402368_j74302934221059_3_alg».proof.Proof.Spec
import proofs.«402368_j74302934221059_3_alg».proof.Proof.MathRows

noncomputable section

namespace Cert.Spec

open Idealize.ShloMosaic Idealize.ShloMosaic.ValueIdx

namespace Totals

theorem coe_sum_real {ι : Type*} (s : Finset ι) (g : ι → ℝ) :
    ∑ i ∈ s, ((g i : ℝ) : EReal) = ((∑ i ∈ s, g i : ℝ) : EReal) := by
  classical
  refine Finset.induction_on s ?_ ?_
  · simp
  · intro a t ha ih
    rw [Finset.sum_insert ha, Finset.sum_insert ha, ih, EReal.coe_add]

theorem e8192_eq : e8192 = ((8192 : ℝ) : EReal) := by
  unfold e8192
  simp [Ideal.ofBits, Ideal.ieee, -EReal.coe_mul]; norm_num

theorem eps_real_pos : ∃ r : ℝ, 0 < r ∧ eps = (r : EReal) := by
  refine ⟨(11258999 : ℝ) * (2 : ℝ) ^ (-50 : Int), by positivity, ?_⟩
  unfold eps
  simp [Ideal.ofBits, Ideal.ieee, -EReal.coe_mul]

theorem div_neg_real (x : EReal) (e : ℝ) (he : e ≠ 0) :
    Ideal.div (-x) (e : EReal) = -(Ideal.div x (e : EReal)) := by
  have h0 : (e : EReal) ≠ 0 := EReal.coe_ne_zero.2 he
  unfold Ideal.div
  rw [if_neg h0, if_neg h0, neg_mul]

end Totals

theorem neg_div_sum (f : Fin 8192 → EReal) (hf : ∀ b, ∃ r : ℝ, f b = (r : EReal)) :
    Ideal.div (∑ b : Fin 8192, -(f b)) e8192 = -(Ideal.div (∑ b : Fin 8192, f b) e8192) := by
  choose g hg using hf
  have hneg : (∑ b : Fin 8192, -(f b)) = -(∑ b : Fin 8192, f b) := by
    simp only [hg, ← EReal.coe_neg, Totals.coe_sum_real, Finset.sum_neg_distrib]
  rw [hneg, Totals.e8192_eq]
  exact Totals.div_neg_real _ 8192 (by norm_num)

namespace Totals

theorem cnorm_real_pos (x : Fin 512 → EReal) (hx : ∀ d, ∃ r : ℝ, x d = (r : EReal)) :
    ∃ c : ℝ, 0 < c ∧ cnorm x = (c : EReal) := by
  choose g hg using hx
  obtain ⟨e, he, hE⟩ := Totals.eps_real_pos
  have hs : (∑ d : Fin 512, x d * x d) = ((∑ d : Fin 512, g d * g d : ℝ) : EReal) := by
    simp only [hg, ← EReal.coe_mul, Totals.coe_sum_real]
  have hnn : ¬ (∑ d : Fin 512, g d * g d) < 0 :=
    not_lt.2 (Finset.sum_nonneg (fun d _ => mul_self_nonneg (g d)))
  refine ⟨max (Real.sqrt (∑ d : Fin 512, g d * g d)) e, lt_max_of_lt_right he, ?_⟩
  unfold cnorm
  rw [hs, Ideal.sqrt_coe, if_neg hnn, hE]
  exact (EReal.coe_strictMono.monotone.map_max).symm

theorem unit_real (x : Fin 512 → EReal) (hx : ∀ d, ∃ r : ℝ, x d = (r : EReal)) (d : Fin 512) :
    ∃ r : ℝ, unit x d = (r : EReal) := by
  obtain ⟨c, hc, hC⟩ := Totals.cnorm_real_pos x hx
  obtain ⟨a, ha⟩ := hx d
  refine ⟨a * c⁻¹, ?_⟩
  unfold unit Ideal.div
  rw [hC, ha, if_neg (EReal.coe_ne_zero.2 hc.ne'), EReal.coe_mul, EReal.coe_inv]

end Totals

theorem cosRow_real (A : SMD.Idx → EReal) (hA : ∀ i, ∃ r : ℝ, A i = (r : EReal)) (p : Fin 512 → EReal)
    (hp : ∀ d, ∃ r : ℝ, p d = (r : EReal)) :
    ∀ m, ∃ r : ℝ, cosRow A p m = (r : EReal) := by
  intro m
  have hr : ∀ d, ∃ r : ℝ, row A m d = (r : EReal) := fun d => hA (ix2 m d)
  choose u hu using Totals.unit_real p hp
  choose v hv using Totals.unit_real (row A m) hr
  refine ⟨∑ d : Fin 512, u d * v d, ?_⟩
  show cosim p (row A m) = _
  unfold cosim
  simp only [hu, hv, ← EReal.coe_mul, Totals.coe_sum_real]

-- Row by row: log-sum-exp with the maximum taken out is log-sum-exp, a masked sum over a one-hot row is the class entry, and -(log (exp y_k / sum exp y)) = lse y - y_k.
theorem outK_eq_outR (P : SBD.Idx → EReal) (A : SMD.Idx → EReal) (V W : SBD.Idx → EReal) (Q R : SBM.Idx → EReal)
    (cw : Fin 8192 → BitVec 32) (cls : Fin 8192 → Fin 3129)
    (hP : ∀ i, ∃ r : ℝ, P i = (r : EReal)) (hA : ∀ i, ∃ r : ℝ, A i = (r : EReal))
    (hQ : ∀ i, ∃ r : ℝ, Q i = (r : EReal)) (hR : ∀ i, ∃ r : ℝ, R i = (r : EReal))
    (hcw : ∀ b, cw b = BitVec.ofNat 32 (cls b).val) :
    outK P A V W Q R cw = outR P A V W Q R cls := by
  funext j
  have h1 : ∀ b : Fin 8192, lossK (cosRow A (row P b)) (cw b) = nceR (cosRow A (row P b)) (cls b) := by
    intro b
    rw [hcw b]
    exact lossK_eq_nceR _ (cosRow_real A hA (row P b) (fun d => hP (ix2 b d))) (cls b)
  have h3 : ∀ b : Fin 8192, lossK (row R b) (cw b) = -(logpR (row R b) (cls b)) := by
    intro b
    rw [hcw b]
    exact lossK_eq_neg_logpR (row R b) (fun m => hR (ix2 b m)) (cls b)
  have h4 : ∀ b : Fin 8192, lossK (row Q b) (cw b) = -(logpR (row Q b) (cls b)) := by
    intro b
    rw [hcw b]
    exact lossK_eq_neg_logpR (row Q b) (fun m => hQ (ix2 b m)) (cls b)
  unfold outK outR
  simp only [h1, h3, h4]
  rw [neg_div_sum (fun b => logpR (row R b) (cls b)) (fun b => logpR_real (row R b) (fun m => hR (ix2 b m)) (cls b)),
    neg_div_sum (fun b => logpR (row Q b) (cls b)) (fun b => logpR_real (row Q b) (fun m => hQ (ix2 b m)) (cls b))]

end Cert.Spec

end
-- ==== Proof.PreDecode.lean ====
import proofs.«402368_j74302934221059_3_alg».proof.Defs
import proofs.«402368_j74302934221059_3_alg».proof.Proof.Gen.Pre_finite_inputs
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

instance subsingleton_S_ : Subsingleton S_.Idx := ⟨fun a b => funext fun d => d.elim0⟩

theorem ofBits_inf : Ideal.ofBits .f32 0x7F800000#32 = (⊤ : EReal) := by simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  rw [StableHlo.Predicate.ofBool_eq_one_iff] at h
  simp only [decide_eq_true_eq] at h
  induction x using EReal.rec with
  | bot => simp at h
  | top => simp at h
  | coe r => exact ⟨r, rfl⟩

theorem finite_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ix0 = 1#1) (i : s.Idx) : ∃ r : ℝ, x i = (r : EReal) :=
  real_of_abs_lt_inf (x i) (Host.reduce_andi_all _ _ hr h0 ix0 e i)

theorem toNat_lt_of_range (w : BitVec 32) (h0 : IntOp.cmpi .sge w 0#32 = 1#1) (h1 : IntOp.cmpi .slt w 3129#32 = 1#1) :
    w.toNat < 3129 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have c : (3129#32 : BitVec 32).toInt = 3129 := by decide
  rw [z] at h0
  rw [c] at h1
  have hw := w.isLt
  rw [BitVec.toInt_eq_toNat_cond] at h0 h1
  split at h0 <;> omega

-- The precondition read back: every float entry is a real number and every class word is BitVec.ofNat 32 k with k < 3129.
theorem decode [Cert.Pre_finite_inputs.Facts]
    (a0 : FVec Ideal Cert.Pre_finite_inputs.S8192x512 .f32) (a1 : FVec Ideal Cert.Pre_finite_inputs.S3129x512 .f32)
    (a2 a3 : FVec Ideal Cert.Pre_finite_inputs.S8192x512 .f32) (a4 a5 : FVec Ideal Cert.Pre_finite_inputs.S8192x3129 .f32)
    (a6 : IVec Cert.Pre_finite_inputs.S8192x1 32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal))
    ∧ ∃ cls : Fin 8192 → Fin 3129, ∀ b : Fin 8192, a6 (ValueIdx.ix2 b 0) = BitVec.ofNat 32 (cls b).val := by
  have e := congrFun h ix0
  dsimp only [fn, fn_part1, fn_part2, andi] at e
  simp only [IntOp.andi_eq_one] at e
  obtain ⟨⟨⟨⟨⟨⟨⟨e0, e1⟩, e2⟩, e3⟩, e4⟩, e5⟩, e6⟩, e7⟩ := e
  have hge : ∀ b : Fin 8192, IntOp.cmpi .sge (a6 (ix2 b 0)) 0#32 = 1#1 := fun b =>
    Host.reduce_andi_all _ _ _ _ ix0 e6 (ix2 b 0)
  have hlt : ∀ b : Fin 8192, IntOp.cmpi .slt (a6 (ix2 b 0)) 3129#32 = 1#1 := fun b =>
    Host.reduce_andi_all _ _ _ _ ix0 e7 (ix2 b 0)
  refine ⟨finite_of_all a0 _ _ _ e0, finite_of_all a1 _ _ _ e1, finite_of_all a2 _ _ _ e2, finite_of_all a3 _ _ _ e3,
    finite_of_all a4 _ _ _ e4, finite_of_all a5 _ _ _ e5,
    fun b => ⟨(a6 (ix2 b 0)).toNat, toNat_lt_of_range _ (hge b) (hlt b)⟩, fun b => ?_⟩
  apply BitVec.eq_of_toNat_eq
  rw [BitVec.toNat_ofNat]
  exact (Nat.mod_eq_of_lt (a6 (ix2 b 0)).isLt).symm

end Cert.PreDecode

end
-- ==== Proof.lean ====
import proofs.«402368_j74302934221059_3_alg».proof.Defs
import proofs.«402368_j74302934221059_3_alg».proof.Proof.Gen.Kernel
import proofs.«402368_j74302934221059_3_alg».proof.Proof.Gen.KernelIdeal
import proofs.«402368_j74302934221059_3_alg».proof.Proof.Gen.ReferenceIdeal
import proofs.«402368_j74302934221059_3_alg».proof.Proof.Gen.Pre_finite_inputs
import proofs.«402368_j74302934221059_3_alg».proof.Proof.K.Run
import proofs.«402368_j74302934221059_3_alg».proof.Proof.KI.Run
import proofs.«402368_j74302934221059_3_alg».proof.Proof.KOut
import proofs.«402368_j74302934221059_3_alg».proof.Proof.RefRun
import proofs.«402368_j74302934221059_3_alg».proof.Proof.RefValue
import proofs.«402368_j74302934221059_3_alg».proof.Proof.MathTotals
import proofs.«402368_j74302934221059_3_alg».proof.Proof.PreDecode
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ =>
  (θ_run Cert.Kernel.defs _ _).mono (fun _ h c => (h c).2) (Cert.Kernel.Fr.run_res m ρ)

theorem frame_ki : Cert.frame_KernelIdeal := fun m ρ _ =>
  (θ_run Cert.KernelIdeal.defs _ _).mono (fun _ h c => (h c).2) (Cert.KernelIdeal.Fr.run_res m ρ)

theorem frame_ri : Cert.frame_ReferenceIdeal := fun m ρ _ =>
  (θ_run Cert.ReferenceIdeal.defs _ _).mono (fun _ h c => (h c).2) (Cert.ReferenceIdeal.RunStages.run_stage (F := Ideal) m ρ)

theorem algebraic : Cert.algebraic_KernelIdeal_ReferenceIdeal := by
  intro m ρ m' ρ' hpre hagree
  refine ⟨fun c => Cert.KernelIdeal.Fr.W3 (F := Ideal) m ρ c (Proc.devRef .tc Cert.KernelIdeal.main_v27), ?_, ?_⟩
  · exact Cert.KernelIdeal.Fr.run_res (F := Ideal) m ρ
  · refine (θ_run Cert.ReferenceIdeal.defs _ _).mono (fun r h c => ⟨(h c).1.trans ?_, (h c).2⟩)
      (Cert.ReferenceIdeal.RunStages.run_stage (F := Ideal) m' ρ')
    obtain ⟨h0, h1, h2, h3, h4, h5, cls, hcls⟩ := Cert.PreDecode.decode _ _ _ _ _ _ _ (hpre c)
    obtain ⟨e0, e1, e2, e3, e4, e5, e6⟩ := hagree c
    rw [e0, e1, e2, e3, e4, e5, e6]
    exact (Cert.RefValue.ref_stage _ _ _ _ _ _ _ cls hcls).trans
      ((Cert.Spec.outK_eq_outR _ _ _ _ _ _ _ cls h0 h1 h4 h5 hcls).symm.trans (Cert.KernelIdeal.KVal.kernel_out m ρ c).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
